-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v369)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v369) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v499) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S4x128x128 : Shape := ⟨3, ![4, 128, 128]⟩
abbrev S4x128 : Shape := ⟨2, ![4, 128]⟩
abbrev S_ : Shape := ⟨0, ![]⟩
abbrev S50000x4 : Shape := ⟨2, ![50000, 4]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  reducesTo_S_S_d : S_.ReducesTo [] S_
  bcast_S_S50000x4 : S_.BroadcastsInDim S50000x4 (![] : Fin 0 → Fin S50000x4.rank)
  reducesTo_S50000x4_S_d0_1 : S50000x4.ReducesTo [0, 1] S_

variable [Facts]

def fn_part3 {F : FTy → Type} [FloatOps F] (main_v47 : IVec S_ 1) (main_v50 : IVec S50000x4 1) : IVec S_ 1 :=
  let main_c_19 : IVec S_ 1 := constantI S_ 1 1#1
  let main_v51 : IVec S_ 1 := (fun x v => Host.reduce IntOp.andi x v reducesTo_S50000x4_S_d0_1 h_S_) main_v50 main_c_19
  let main_v52 : IVec S_ 1 := andi main_v47 main_v51
  main_v52

def fn_part2 {F : FTy → Type} [FloatOps F] (main_arg8 : FVec F S4x128 .f32) (main_arg9 : FVec F S4x128 .f32) (main_arg10 : FVec F S_ .f32) (main_arg11 : FVec F S50000x4 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg9
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S_ .f32 := Host.absf main_arg10
  let main_cst_16 : FVec F S_ .f32 := constant S_ .f32 0x7F800000#32
  let main_v45 : IVec S_ 1 := cmpf .olt main_v44 main_cst_16
  let main_c_17 : IVec S_ 1 := constantI S_ 1 1#1
  let main_v46 : IVec S_ 1 := (fun x v => Host.reduce IntOp.andi x v reducesTo_S_S_d h_S_) main_v45 main_c_17
  let main_v47 : IVec S_ 1 := andi main_v43 main_v46
  let main_v48 : FVec F S50000x4 .f32 := Host.absf main_arg11
  let main_cst_18 : FVec F S_ .f32 := constant S_ .f32 0x7F800000#32
  let main_v49 : FVec F S50000x4 .f32 := broadcastInDim S50000x4 ![] bcast_S_S50000x4 main_cst_18
  let main_v50 : IVec S50000x4 1 := cmpf .olt main_v48 main_v49
  fn_part3 (F := F) main_v47 main_v50

def fn_part1 {F : FTy → Type} [FloatOps F] (main_arg5 : FVec F S4x128 .f32) (main_arg6 : FVec F S4x128 .f32) (main_arg7 : FVec F S4x128 .f32) (main_arg8 : FVec F S4x128 .f32) (main_arg9 : FVec F S4x128 .f32) (main_arg10 : FVec F S_ .f32) (main_arg11 : FVec F S50000x4 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S4x128x128 .f32) (main_arg3 : FVec F S4x128 .f32) (main_arg4 : FVec F S4x128x128 .f32) (main_arg5 : FVec F S4x128 .f32) (main_arg6 : FVec F S4x128 .f32) (main_arg7 : FVec F S4x128 .f32) (main_arg8 : FVec F S4x128 .f32) (main_arg9 : FVec F S4x128 .f32) (main_arg10 : FVec F S_ .f32) (main_arg11 : FVec F S50000x4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S4x128x128 : Shape := ⟨3, ![4, 128, 128]⟩
abbrev S4x128 : Shape := ⟨2, ![4, 128]⟩
abbrev S_ : Shape := ⟨0, ![]⟩
abbrev S50000x4 : Shape := ⟨2, ![50000, 4]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S850000x1 : Shape := ⟨2, ![850000, 1]⟩
abbrev S50000x1 : Shape := ⟨2, ![50000, 1]⟩
abbrev S1x1 : Shape := ⟨2, ![1, 1]⟩
abbrev S1x128 : Shape := ⟨2, ![1, 128]⟩
abbrev S1x128x128 : Shape := ⟨3, ![1, 128, 128]⟩
abbrev S128x128 : Shape := ⟨2, ![128, 128]⟩
abbrev S5000x128 : Shape := ⟨2, ![5000, 128]⟩
abbrev S850000x128 : Shape := ⟨2, ![850000, 128]⟩
abbrev S128 : Shape := ⟨1, ![128]⟩
abbrev S5000x1 : Shape := ⟨2, ![5000, 1]⟩

abbrev nBuf : Space → Nat
  | .hbm => 453
  | .vmem => 128
  | .smem => 0
  | _ => 0

abbrev hbmTy0_0 (i : Nat) : BufTy := match i % 128 with
  | 0 => ⟨S50000x128, .f32⟩
  | 1 => ⟨S2x800000, .i32⟩
  | 2 => ⟨S4x128x128, .f32⟩
  | 3 => ⟨S4x128, .f32⟩
  | 4 => ⟨S4x128x128, .f32⟩
  | 5 => ⟨S4x128, .f32⟩
  | 6 => ⟨S4x128, .f32⟩
  | 7 => ⟨S4x128, .f32⟩
  | 8 => ⟨S4x128, .f32⟩
  | 9 => ⟨S4x128, .f32⟩
  | 10 => ⟨S_, .f32⟩
  | 11 => ⟨S50000x4, .f32⟩
  | 12 => ⟨S1x800000, .i32⟩
  | 13 => ⟨S800000, .i32⟩
  | 14 => ⟨S1x800000, .i32⟩
  | 15 => ⟨S800000, .i32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .f32⟩
  | 56 => ⟨S50000, .f32⟩
  | 57 => ⟨S_, .f32⟩
  | 58 => ⟨S50000, .f32⟩
  | 59 => ⟨S50000, .f32⟩
  | 60 => ⟨S50000x1, .f32⟩
  | 61 => ⟨S50000x4, .f32⟩
  | 62 => ⟨S50000x4, .f32⟩
  | 63 => ⟨S50000x4, .f32⟩
  | 64 => ⟨S_, .f32⟩
  | 65 => ⟨S50000, .f32⟩
  | 66 => ⟨S50000x1, .f32⟩
  | 67 => ⟨S50000x4, .f32⟩
  | 68 => ⟨S50000x4, .f32⟩
  | 69 => ⟨S1x1, .f32⟩
  | 70 => ⟨S1x128, .f32⟩
  | 71 => ⟨S_, .f32⟩
  | 72 => ⟨S50000x128, .f32⟩
  | 73 => ⟨S1x128x128, .f32⟩
  | 74 => ⟨S128x128, .f32⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x1, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S128, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S50000x128, .f32⟩
  | 106 => ⟨S_, .f32⟩
  | 107 => ⟨S128, .f32⟩
  | 108 => ⟨S_, .f32⟩
  | 109 => ⟨S128, .f32⟩
  | 110 => ⟨S128, .f32⟩
  | 111 => ⟨S1x128, .f32⟩
  | 112 => ⟨S1x128, .f32⟩
  | 113 => ⟨S1x128, .f32⟩
  | 114 => ⟨S128, .f32⟩
  | 115 => ⟨S1x128, .f32⟩
  | 116 => ⟨S1x128, .f32⟩
  | 117 => ⟨S128, .f32⟩
  | 118 => ⟨S1x128, .f32⟩
  | 119 => ⟨S50000x128, .f32⟩
  | 120 => ⟨S1x128x128, .f32⟩
  | 121 => ⟨S128x128, .f32⟩
  | 122 => ⟨S50000x128, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x1, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S_, .f32⟩
  | 17 => ⟨S128, .f32⟩
  | 18 => ⟨S_, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S50000x128, .f32⟩
  | 25 => ⟨S_, .f32⟩
  | 26 => ⟨S128, .f32⟩
  | 27 => ⟨S_, .f32⟩
  | 28 => ⟨S128, .f32⟩
  | 29 => ⟨S128, .f32⟩
  | 30 => ⟨S1x128, .f32⟩
  | 31 => ⟨S1x128, .f32⟩
  | 32 => ⟨S1x128, .f32⟩
  | 33 => ⟨S128, .f32⟩
  | 34 => ⟨S1x128, .f32⟩
  | 35 => ⟨S1x128, .f32⟩
  | 36 => ⟨S128, .f32⟩
  | 37 => ⟨S1x128, .f32⟩
  | 38 => ⟨S50000x1, .f32⟩
  | 39 => ⟨S50000x128, .f32⟩
  | 40 => ⟨S1x128x128, .f32⟩
  | 41 => ⟨S128x128, .f32⟩
  | 42 => ⟨S50000x128, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x128, .f32⟩
  | 52 => ⟨S850000x1, .f32⟩
  | 53 => ⟨S850000x128, .f32⟩
  | 54 => ⟨S850000x128, .f32⟩
  | 55 => ⟨S_, .f32⟩
  | 56 => ⟨S50000x128, .f32⟩
  | 57 => ⟨S850000x1, .i32⟩
  | 58 => ⟨S50000x128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S50000x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S1x128, .f32⟩
  | 80 => ⟨S1x128, .f32⟩
  | 81 => ⟨S128, .f32⟩
  | 82 => ⟨S1x128, .f32⟩
  | 83 => ⟨S1x128, .f32⟩
  | 84 => ⟨S128, .f32⟩
  | 85 => ⟨S1x128, .f32⟩
  | 86 => ⟨S50000x128, .f32⟩
  | 87 => ⟨S1x128x128, .f32⟩
  | 88 => ⟨S128x128, .f32⟩
  | 89 => ⟨S50000x128, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x128, .f32⟩
  | 99 => ⟨S850000x1, .f32⟩
  | 100 => ⟨S850000x128, .f32⟩
  | 101 => ⟨S850000x128, .f32⟩
  | 102 => ⟨S_, .f32⟩
  | 103 => ⟨S50000x128, .f32⟩
  | 104 => ⟨S850000x1, .i32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S_, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S128, .f32⟩
  | 122 => ⟨S_, .f32⟩
  | 123 => ⟨S128, .f32⟩
  | 124 => ⟨S128, .f32⟩
  | 125 => ⟨S1x128, .f32⟩
  | 126 => ⟨S1x128, .f32⟩
  | 127 => ⟨S1x128, .f32⟩
  | _ => ⟨S50000x128, .f32⟩

abbrev hbmTy0_2 (i : Nat) : BufTy := match i % 128 with
  | 0 => ⟨S128, .f32⟩
  | 1 => ⟨S1x128, .f32⟩
  | 2 => ⟨S1x128, .f32⟩
  | 3 => ⟨S128, .f32⟩
  | 4 => ⟨S1x128, .f32⟩
  | 5 => ⟨S50000x1, .f32⟩
  | 6 => ⟨S50000x128, .f32⟩
  | 7 => ⟨S1x128x128, .f32⟩
  | 8 => ⟨S128x128, .f32⟩
  | 9 => ⟨S50000x128, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x128, .f32⟩
  | 19 => ⟨S850000x1, .f32⟩
  | 20 => ⟨S850000x128, .f32⟩
  | 21 => ⟨S850000x128, .f32⟩
  | 22 => ⟨S_, .f32⟩
  | 23 => ⟨S50000x128, .f32⟩
  | 24 => ⟨S850000x1, .i32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S50000x128, .f32⟩
  | 40 => ⟨S_, .f32⟩
  | 41 => ⟨S128, .f32⟩
  | 42 => ⟨S_, .f32⟩
  | 43 => ⟨S128, .f32⟩
  | 44 => ⟨S128, .f32⟩
  | 45 => ⟨S1x128, .f32⟩
  | 46 => ⟨S1x128, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S50000x128, .f32⟩
  | 54 => ⟨S1x128x128, .f32⟩
  | 55 => ⟨S128x128, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S_, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S1x128, .f32⟩
  | 94 => ⟨S1x128, .f32⟩
  | 95 => ⟨S128, .f32⟩
  | 96 => ⟨S1x128, .f32⟩
  | 97 => ⟨S1x128, .f32⟩
  | 98 => ⟨S128, .f32⟩
  | 99 => ⟨S1x128, .f32⟩
  | 100 => ⟨S50000x1, .f32⟩
  | 101 => ⟨S50000x128, .f32⟩
  | 102 => ⟨S1x128x128, .f32⟩
  | 103 => ⟨S128x128, .f32⟩
  | 104 => ⟨S50000x128, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x128, .f32⟩

abbrev hbmTy0_3 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S50000x128, .f32⟩
  | 7 => ⟨S_, .f32⟩
  | 8 => ⟨S128, .f32⟩
  | 9 => ⟨S_, .f32⟩
  | 10 => ⟨S128, .f32⟩
  | 11 => ⟨S128, .f32⟩
  | 12 => ⟨S1x128, .f32⟩
  | 13 => ⟨S1x128, .f32⟩
  | 14 => ⟨S1x128, .f32⟩
  | 15 => ⟨S128, .f32⟩
  | 16 => ⟨S1x128, .f32⟩
  | 17 => ⟨S1x128, .f32⟩
  | 18 => ⟨S128, .f32⟩
  | 19 => ⟨S1x128, .f32⟩
  | 20 => ⟨S50000x128, .f32⟩
  | 21 => ⟨S1x128x128, .f32⟩
  | 22 => ⟨S128x128, .f32⟩
  | 23 => ⟨S50000x128, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000x128, .f32⟩
  | 33 => ⟨S850000x1, .f32⟩
  | 34 => ⟨S850000x128, .f32⟩
  | 35 => ⟨S850000x128, .f32⟩
  | 36 => ⟨S_, .f32⟩
  | 37 => ⟨S50000x128, .f32⟩
  | 38 => ⟨S850000x1, .i32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S128, .f32⟩
  | 56 => ⟨S_, .f32⟩
  | 57 => ⟨S128, .f32⟩
  | 58 => ⟨S128, .f32⟩
  | 59 => ⟨S1x128, .f32⟩
  | 60 => ⟨S1x128, .f32⟩
  | 61 => ⟨S1x128, .f32⟩
  | 62 => ⟨S128, .f32⟩
  | 63 => ⟨S1x128, .f32⟩
  | 64 => ⟨S1x128, .f32⟩
  | 65 => ⟨S128, .f32⟩
  | 66 => ⟨S1x128, .f32⟩
  | 67 => ⟨S50000x1, .f32⟩
  | 68 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x1, .f32⟩
  | .local _ .vmem, ⟨27, _⟩ => ⟨S5000x1, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x1, .f32⟩
  | .local _ .vmem, ⟨59, _⟩ => ⟨S5000x1, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S128x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S128x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S1x128, .f32⟩
  | .local _ .vmem, ⟨89, _⟩ => ⟨S1x128, .f32⟩
  | .local _ .vmem, ⟨90, _⟩ => ⟨S5000x1, .f32⟩
  | .local _ .vmem, ⟨91, _⟩ => ⟨S5000x1, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S5000x128, .f32⟩
  | .local _ .vmem, ⟨98, _⟩ => ⟨S128x128, .f32⟩
  | .local _ .vmem, ⟨99, _⟩ => ⟨S5000x128, .f32⟩
  | .local _ .vmem, ⟨100, _⟩ => ⟨S5000x128, .f32⟩
  | .local _ .vmem, ⟨101, _⟩ => ⟨S5000x128, .f32⟩
  | .local _ .vmem, ⟨102, _⟩ => ⟨S5000x128, .f32⟩
  | .local _ .vmem, ⟨103, _⟩ => ⟨S1x128, .f32⟩
  | .local _ .vmem, ⟨104, _⟩ => ⟨S1x128, .f32⟩
  | .local _ .vmem, ⟨105, _⟩ => ⟨S1x128, .f32⟩
  | .local _ .vmem, ⟨106, _⟩ => ⟨S1x128, .f32⟩
  | .local _ .vmem, ⟨107, _⟩ => ⟨S1x128, .f32⟩
  | .local _ .vmem, ⟨108, _⟩ => ⟨S5000x128, .f32⟩
  | .local _ .vmem, ⟨109, _⟩ => ⟨S5000x128, .f32⟩
  | .local _ .vmem, ⟨110, _⟩ => ⟨S5000x128, .f32⟩
  | .local _ .vmem, ⟨111, _⟩ => ⟨S5000x128, .f32⟩
  | .local _ .vmem, ⟨112, _⟩ => ⟨S128x128, .f32⟩
  | .local _ .vmem, ⟨113, _⟩ => ⟨S5000x128, .f32⟩
  | .local _ .vmem, ⟨114, _⟩ => ⟨S5000x128, .f32⟩
  | .local _ .vmem, ⟨115, _⟩ => ⟨S5000x128, .f32⟩
  | .local _ .vmem, ⟨116, _⟩ => ⟨S5000x128, .f32⟩
  | .local _ .vmem, ⟨117, _⟩ => ⟨S1x128, .f32⟩
  | .local _ .vmem, ⟨118, _⟩ => ⟨S1x128, .f32⟩
  | .local _ .vmem, ⟨119, _⟩ => ⟨S1x128, .f32⟩
  | .local _ .vmem, ⟨120, _⟩ => ⟨S1x128, .f32⟩
  | .local _ .vmem, ⟨121, _⟩ => ⟨S1x128, .f32⟩
  | .local _ .vmem, ⟨122, _⟩ => ⟨S5000x1, .f32⟩
  | .local _ .vmem, ⟨123, _⟩ => ⟨S5000x1, .f32⟩
  | .local _ .vmem, ⟨124, _⟩ => ⟨S5000x128, .f32⟩
  | .local _ .vmem, ⟨125, _⟩ => ⟨S5000x128, .f32⟩
  | .local _ .vmem, ⟨126, _⟩ => ⟨S5000x128, .f32⟩
  | .local _ .vmem, ⟨127, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_11 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_16 : Ref sig .tc := ⟨.hbm, 106, rfl⟩
abbrev main_v74 : Ref sig .tc := ⟨.hbm, 107, rfl⟩
abbrev main_cst_17 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_20 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_21 : Ref sig .tc := ⟨.hbm, 144, rfl⟩
abbrev main_v107 : Ref sig .tc := ⟨.hbm, 145, rfl⟩
abbrev main_cst_22 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_23 : Ref sig .tc := ⟨.hbm, 153, rfl⟩
abbrev main_v114 : Ref sig .tc := ⟨.hbm, 154, rfl⟩
abbrev main_cst_24 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_c_25 : Ref sig .tc := ⟨.hbm, 171, rfl⟩
abbrev main_v130 : Ref sig .tc := ⟨.hbm, 172, rfl⟩
abbrev main_v131 : Ref sig .tc := ⟨.hbm, 173, rfl⟩
abbrev main_c_26 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_27 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_28 : Ref sig .tc := ⟨.hbm, 192, rfl⟩
abbrev main_v148 : Ref sig .tc := ⟨.hbm, 193, rfl⟩
abbrev main_cst_29 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_30 : Ref sig .tc := ⟨.hbm, 201, rfl⟩
abbrev main_v155 : Ref sig .tc := ⟨.hbm, 202, rfl⟩
abbrev main_cst_31 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_c_32 : Ref sig .tc := ⟨.hbm, 218, rfl⟩
abbrev main_v170 : Ref sig .tc := ⟨.hbm, 219, rfl⟩
abbrev main_v171 : Ref sig .tc := ⟨.hbm, 220, rfl⟩
abbrev main_c_33 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_34 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_cst_35 : Ref sig .tc := ⟨.hbm, 239, rfl⟩
abbrev main_v188 : Ref sig .tc := ⟨.hbm, 240, rfl⟩
abbrev main_cst_36 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_cst_37 : Ref sig .tc := ⟨.hbm, 248, rfl⟩
abbrev main_v195 : Ref sig .tc := ⟨.hbm, 249, rfl⟩
abbrev main_cst_38 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_c_39 : Ref sig .tc := ⟨.hbm, 266, rfl⟩
abbrev main_v211 : Ref sig .tc := ⟨.hbm, 267, rfl⟩
abbrev main_v212 : Ref sig .tc := ⟨.hbm, 268, rfl⟩
abbrev main_c_40 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_cst_41 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_cst_42 : Ref sig .tc := ⟨.hbm, 287, rfl⟩
abbrev main_v229 : Ref sig .tc := ⟨.hbm, 288, rfl⟩
abbrev main_cst_43 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_cst_44 : Ref sig .tc := ⟨.hbm, 296, rfl⟩
abbrev main_v236 : Ref sig .tc := ⟨.hbm, 297, rfl⟩
abbrev main_cst_45 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_c_46 : Ref sig .tc := ⟨.hbm, 313, rfl⟩
abbrev main_v251 : Ref sig .tc := ⟨.hbm, 314, rfl⟩
abbrev main_v252 : Ref sig .tc := ⟨.hbm, 315, rfl⟩
abbrev main_c_47 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_cst_48 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_cst_49 : Ref sig .tc := ⟨.hbm, 334, rfl⟩
abbrev main_v269 : Ref sig .tc := ⟨.hbm, 335, rfl⟩
abbrev main_cst_50 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_cst_51 : Ref sig .tc := ⟨.hbm, 343, rfl⟩
abbrev main_v276 : Ref sig .tc := ⟨.hbm, 344, rfl⟩
abbrev main_cst_52 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_c_53 : Ref sig .tc := ⟨.hbm, 361, rfl⟩
abbrev main_v292 : Ref sig .tc := ⟨.hbm, 362, rfl⟩
abbrev main_v293 : Ref sig .tc := ⟨.hbm, 363, rfl⟩
abbrev main_c_54 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_cst_55 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_cst_56 : Ref sig .tc := ⟨.hbm, 382, rfl⟩
abbrev main_v310 : Ref sig .tc := ⟨.hbm, 383, rfl⟩
abbrev main_cst_57 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_cst_58 : Ref sig .tc := ⟨.hbm, 391, rfl⟩
abbrev main_v317 : Ref sig .tc := ⟨.hbm, 392, rfl⟩
abbrev main_cst_59 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_v322 : Ref sig .tc := ⟨.hbm, 398, rfl⟩
abbrev main_v323 : Ref sig .tc := ⟨.hbm, 399, rfl⟩
abbrev main_v324 : Ref sig .tc := ⟨.hbm, 400, rfl⟩
abbrev main_v325 : Ref sig .tc := ⟨.hbm, 401, rfl⟩
abbrev main_v326 : Ref sig .tc := ⟨.hbm, 402, rfl⟩
abbrev main_v327 : Ref sig .tc := ⟨.hbm, 403, rfl⟩
abbrev main_v328 : Ref sig .tc := ⟨.hbm, 404, rfl⟩
abbrev main_v329 : Ref sig .tc := ⟨.hbm, 405, rfl⟩
abbrev main_v330 : Ref sig .tc := ⟨.hbm, 406, rfl⟩
abbrev main_v331 : Ref sig .tc := ⟨.hbm, 407, rfl⟩
abbrev main_c_60 : Ref sig .tc := ⟨.hbm, 408, rfl⟩
abbrev main_v332 : Ref sig .tc := ⟨.hbm, 409, rfl⟩
abbrev main_v333 : Ref sig .tc := ⟨.hbm, 410, rfl⟩
abbrev main_c_61 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_v337 : Ref sig .tc := ⟨.hbm, 415, rfl⟩
abbrev main_v338 : Ref sig .tc := ⟨.hbm, 416, rfl⟩
abbrev main_v339 : Ref sig .tc := ⟨.hbm, 417, rfl⟩
abbrev main_v340 : Ref sig .tc := ⟨.hbm, 418, rfl⟩
abbrev main_v341 : Ref sig .tc := ⟨.hbm, 419, rfl⟩
abbrev main_cst_62 : Ref sig .tc := ⟨.hbm, 420, rfl⟩
abbrev main_v342 : Ref sig .tc := ⟨.hbm, 421, rfl⟩
abbrev main_v343 : Ref sig .tc := ⟨.hbm, 422, rfl⟩
abbrev main_v344 : Ref sig .tc := ⟨.hbm, 423, rfl⟩
abbrev main_v345 : Ref sig .tc := ⟨.hbm, 424, rfl⟩
abbrev main_v346 : Ref sig .tc := ⟨.hbm, 425, rfl⟩
abbrev main_v347 : Ref sig .tc := ⟨.hbm, 426, rfl⟩
abbrev main_v348 : Ref sig .tc := ⟨.hbm, 427, rfl⟩
abbrev main_v349 : Ref sig .tc := ⟨.hbm, 428, rfl⟩
abbrev main_cst_63 : Ref sig .tc := ⟨.hbm, 429, rfl⟩
abbrev main_v350 : Ref sig .tc := ⟨.hbm, 430, rfl⟩
abbrev main_cst_64 : Ref sig .tc := ⟨.hbm, 431, rfl⟩
abbrev main_v351 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_cst_65 : Ref sig .tc := ⟨.hbm, 438, rfl⟩
abbrev main_v357 : Ref sig .tc := ⟨.hbm, 439, rfl⟩
abbrev main_cst_66 : Ref sig .tc := ⟨.hbm, 440, rfl⟩
abbrev main_v358 : Ref sig .tc := ⟨.hbm, 441, rfl⟩
abbrev main_v359 : Ref sig .tc := ⟨.hbm, 442, rfl⟩
abbrev main_v360 : Ref sig .tc := ⟨.hbm, 443, rfl⟩
abbrev main_v361 : Ref sig .tc := ⟨.hbm, 444, rfl⟩
abbrev main_v362 : Ref sig .tc := ⟨.hbm, 445, rfl⟩
abbrev main_v363 : Ref sig .tc := ⟨.hbm, 446, rfl⟩
abbrev main_v364 : Ref sig .tc := ⟨.hbm, 447, rfl⟩
abbrev main_v365 : Ref sig .tc := ⟨.hbm, 448, rfl⟩
abbrev main_v366 : Ref sig .tc := ⟨.hbm, 449, rfl⟩
abbrev main_v367 : Ref sig .tc := ⟨.hbm, 450, rfl⟩
abbrev main_v368 : Ref sig .tc := ⟨.hbm, 451, rfl⟩
abbrev main_v369 : Ref sig .tc := ⟨.hbm, 452, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg7_1 : Ref sig .tc := ⟨.vmem, 29, rfl⟩
abbrev cc3_stg8_0 : Ref sig .tc := ⟨.vmem, 30, rfl⟩
abbrev cc3_stg8_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg6_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc7_stg7_0 : Ref sig .tc := ⟨.vmem, 60, rfl⟩
abbrev cc7_stg7_1 : Ref sig .tc := ⟨.vmem, 61, rfl⟩
abbrev cc7_stg8_0 : Ref sig .tc := ⟨.vmem, 62, rfl⟩
abbrev cc7_stg8_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg2_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg3_0 : Ref sig .tc := ⟨.vmem, 73, rfl⟩
abbrev cc9_stg4_0 : Ref sig .tc := ⟨.vmem, 74, rfl⟩
abbrev cc9_stg5_0 : Ref sig .tc := ⟨.vmem, 75, rfl⟩
abbrev cc9_stg6_0 : Ref sig .tc := ⟨.vmem, 76, rfl⟩
abbrev cc9_stg6_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg2_0 : Ref sig .tc := ⟨.vmem, 81, rfl⟩
abbrev cc10_stg2_1 : Ref sig .tc := ⟨.vmem, 82, rfl⟩
abbrev cc11_stg0_0 : Ref sig .tc := ⟨.vmem, 83, rfl⟩
abbrev cc11_stg0_1 : Ref sig .tc := ⟨.vmem, 84, rfl⟩
abbrev cc11_stg1_0 : Ref sig .tc := ⟨.vmem, 85, rfl⟩
abbrev cc11_stg2_0 : Ref sig .tc := ⟨.vmem, 86, rfl⟩
abbrev cc11_stg3_0 : Ref sig .tc := ⟨.vmem, 87, rfl⟩
abbrev cc11_stg4_0 : Ref sig .tc := ⟨.vmem, 88, rfl⟩
abbrev cc11_stg5_0 : Ref sig .tc := ⟨.vmem, 89, rfl⟩
abbrev cc11_stg6_0 : Ref sig .tc := ⟨.vmem, 90, rfl⟩
abbrev cc11_stg6_1 : Ref sig .tc := ⟨.vmem, 91, rfl⟩
abbrev cc11_stg7_0 : Ref sig .tc := ⟨.vmem, 92, rfl⟩
abbrev cc11_stg7_1 : Ref sig .tc := ⟨.vmem, 93, rfl⟩
abbrev cc11_stg8_0 : Ref sig .tc := ⟨.vmem, 94, rfl⟩
abbrev cc11_stg8_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg2_0 : Ref sig .tc := ⟨.vmem, 99, rfl⟩
abbrev cc12_stg2_1 : Ref sig .tc := ⟨.vmem, 100, rfl⟩
abbrev cc13_stg0_0 : Ref sig .tc := ⟨.vmem, 101, rfl⟩
abbrev cc13_stg0_1 : Ref sig .tc := ⟨.vmem, 102, rfl⟩
abbrev cc13_stg1_0 : Ref sig .tc := ⟨.vmem, 103, rfl⟩
abbrev cc13_stg2_0 : Ref sig .tc := ⟨.vmem, 104, rfl⟩
abbrev cc13_stg3_0 : Ref sig .tc := ⟨.vmem, 105, rfl⟩
abbrev cc13_stg4_0 : Ref sig .tc := ⟨.vmem, 106, rfl⟩
abbrev cc13_stg5_0 : Ref sig .tc := ⟨.vmem, 107, rfl⟩
abbrev cc13_stg6_0 : Ref sig .tc := ⟨.vmem, 108, rfl⟩
abbrev cc13_stg6_1 : Ref sig .tc := ⟨.vmem, 109, rfl⟩
abbrev cc14_stg0_0 : Ref sig .tc := ⟨.vmem, 110, rfl⟩
abbrev cc14_stg0_1 : Ref sig .tc := ⟨.vmem, 111, rfl⟩
abbrev cc14_stg1_0 : Ref sig .tc := ⟨.vmem, 112, rfl⟩
abbrev cc14_stg2_0 : Ref sig .tc := ⟨.vmem, 113, rfl⟩
abbrev cc14_stg2_1 : Ref sig .tc := ⟨.vmem, 114, rfl⟩
abbrev cc15_stg0_0 : Ref sig .tc := ⟨.vmem, 115, rfl⟩
abbrev cc15_stg0_1 : Ref sig .tc := ⟨.vmem, 116, rfl⟩
abbrev cc15_stg1_0 : Ref sig .tc := ⟨.vmem, 117, rfl⟩
abbrev cc15_stg2_0 : Ref sig .tc := ⟨.vmem, 118, rfl⟩
abbrev cc15_stg3_0 : Ref sig .tc := ⟨.vmem, 119, rfl⟩
abbrev cc15_stg4_0 : Ref sig .tc := ⟨.vmem, 120, rfl⟩
abbrev cc15_stg5_0 : Ref sig .tc := ⟨.vmem, 121, rfl⟩
abbrev cc15_stg6_0 : Ref sig .tc := ⟨.vmem, 122, rfl⟩
abbrev cc15_stg6_1 : Ref sig .tc := ⟨.vmem, 123, rfl⟩
abbrev cc15_stg7_0 : Ref sig .tc := ⟨.vmem, 124, rfl⟩
abbrev cc15_stg7_1 : Ref sig .tc := ⟨.vmem, 125, rfl⟩
abbrev cc15_stg8_0 : Ref sig .tc := ⟨.vmem, 126, rfl⟩
abbrev cc15_stg8_1 : Ref sig .tc := ⟨.vmem, 127, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc3_sem7_0 : DmaSem sig := 28
abbrev cc3_sem7_1 : DmaSem sig := 29
abbrev cc3_sem8_0 : DmaSem sig := 30
abbrev cc3_sem8_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem6_0 : DmaSem sig := 44
abbrev cc5_sem6_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc7_sem7_0 : DmaSem sig := 60
abbrev cc7_sem7_1 : DmaSem sig := 61
abbrev cc7_sem8_0 : DmaSem sig := 62
abbrev cc7_sem8_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem2_1 : DmaSem sig := 68
abbrev cc9_sem0_0 : DmaSem sig := 69
abbrev cc9_sem0_1 : DmaSem sig := 70
abbrev cc9_sem1_0 : DmaSem sig := 71
abbrev cc9_sem2_0 : DmaSem sig := 72
abbrev cc9_sem3_0 : DmaSem sig := 73
abbrev cc9_sem4_0 : DmaSem sig := 74
abbrev cc9_sem5_0 : DmaSem sig := 75
abbrev cc9_sem6_0 : DmaSem sig := 76
abbrev cc9_sem6_1 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem2_1 : DmaSem sig := 82
abbrev cc11_sem0_0 : DmaSem sig := 83
abbrev cc11_sem0_1 : DmaSem sig := 84
abbrev cc11_sem1_0 : DmaSem sig := 85
abbrev cc11_sem2_0 : DmaSem sig := 86
abbrev cc11_sem3_0 : DmaSem sig := 87
abbrev cc11_sem4_0 : DmaSem sig := 88
abbrev cc11_sem5_0 : DmaSem sig := 89
abbrev cc11_sem6_0 : DmaSem sig := 90
abbrev cc11_sem6_1 : DmaSem sig := 91
abbrev cc11_sem7_0 : DmaSem sig := 92
abbrev cc11_sem7_1 : DmaSem sig := 93
abbrev cc11_sem8_0 : DmaSem sig := 94
abbrev cc11_sem8_1 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem2_1 : DmaSem sig := 100
abbrev cc13_sem0_0 : DmaSem sig := 101
abbrev cc13_sem0_1 : DmaSem sig := 102
abbrev cc13_sem1_0 : DmaSem sig := 103
abbrev cc13_sem2_0 : DmaSem sig := 104
abbrev cc13_sem3_0 : DmaSem sig := 105
abbrev cc13_sem4_0 : DmaSem sig := 106
abbrev cc13_sem5_0 : DmaSem sig := 107
abbrev cc13_sem6_0 : DmaSem sig := 108
abbrev cc13_sem6_1 : DmaSem sig := 109
abbrev cc14_sem0_0 : DmaSem sig := 110
abbrev cc14_sem0_1 : DmaSem sig := 111
abbrev cc14_sem1_0 : DmaSem sig := 112
abbrev cc14_sem2_0 : DmaSem sig := 113
abbrev cc14_sem2_1 : DmaSem sig := 114
abbrev cc15_sem0_0 : DmaSem sig := 115
abbrev cc15_sem0_1 : DmaSem sig := 116
abbrev cc15_sem1_0 : DmaSem sig := 117
abbrev cc15_sem2_0 : DmaSem sig := 118
abbrev cc15_sem3_0 : DmaSem sig := 119
abbrev cc15_sem4_0 : DmaSem sig := 120
abbrev cc15_sem5_0 : DmaSem sig := 121
abbrev cc15_sem6_0 : DmaSem sig := 122
abbrev cc15_sem6_1 : DmaSem sig := 123
abbrev cc15_sem7_0 : DmaSem sig := 124
abbrev cc15_sem7_1 : DmaSem sig := 125
abbrev cc15_sem8_0 : DmaSem sig := 126
abbrev cc15_sem8_1 : DmaSem sig := 127

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x1 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S5000x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S5000x1 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 2 → Memref sig .tc .vmem S5000x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 2 → Memref sig .tc .vmem S5000x128 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S5000x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S5000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_7 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_8 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x128 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 2 → Memref sig .tc .vmem S5000x1 .f32 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

abbrev stage15_7 : Fin 2 → Memref sig .tc .vmem S5000x128 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true]

abbrev stage15_8 : Fin 2 → Memref sig .tc .vmem S5000x128 .f32 := fun | 0 => Memref.whole cc15_stg8_0 | 1 => Memref.whole cc15_stg8_1 | ⟨_ + 2, h⟩ => absurd h (Nat.not_lt.2 (Nat.le_add_left _ _))
abbrev sem15_8 : Fin 2 → DmaSem sig := fun | 0 => cc15_sem8_0 | 1 => cc15_sem8_1 | ⟨_ + 2, h⟩ => absurd h (Nat.not_lt.2 (Nat.le_add_left _ _))
abbrev reads15_8 : Fin grid15.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  reducesTo_S50000x4_S50000_d1 : S50000x4.ReducesTo [1] S50000
  h_S_ : 0 < S_.numel
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  shapeCasts_S_S1x1 : S_.ShapeCasts S1x1
  bcast_S1x1_S1x128_0_1 : S1x1.BroadcastsInDim S1x128 (![0, 1] : Fin 2 → Fin S1x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  slices_S4x128_S1x128_0_0 : S4x128.Slices ![0, 0] S1x128
  shapeCasts_S1x128_S128 : S1x128.ShapeCasts S128
  shapeCasts_S128_S1x128 : S128.ShapeCasts S1x128
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S50000x4_S50000x1_0_0 : S50000x4.Slices ![0, 0] S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  slices_S4x128x128_S1x128x128_1_0_0 : S4x128x128.Slices ![1, 0, 0] S1x128x128
  slices_S4x128_S1x128_1_0 : S4x128.Slices ![1, 0] S1x128
  slices_S50000x4_S50000x1_0_1 : S50000x4.Slices ![0, 1] S50000x1
  slices_S4x128x128_S1x128x128_2_0_0 : S4x128x128.Slices ![2, 0, 0] S1x128x128
  slices_S4x128_S1x128_2_0 : S4x128.Slices ![2, 0] S1x128
  slices_S50000x4_S50000x1_0_2 : S50000x4.Slices ![0, 2] S50000x1
  slices_S4x128x128_S1x128x128_3_0_0 : S4x128x128.Slices ![3, 0, 0] S1x128x128
  slices_S4x128_S1x128_3_0 : S4x128.Slices ![3, 0] S1x128
  slices_S50000x4_S50000x1_0_3 : S50000x4.Slices ![0, 3] S50000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S50000x1.size a
  hwx3_6 : ∀ i : grid3.Coords, EltTy.bits .f32 = 32 ∨ (Rect.block (s := S50000x1) S5000x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x1.size a ≤ S50000x1.size a
  hwx7_6 : ∀ i : grid7.Coords, EltTy.bits .f32 = 32 ∨ (Rect.block (s := S50000x1) S5000x1.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S50000x128.size a
  hwx7_7 : ∀ i : grid7.Coords, EltTy.bits .f32 = 32 ∨ (Rect.block (s := S50000x128) S5000x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S5000x128.size a ≤ S50000x128.size a
  hwx7_8 : ∀ i : grid7.Coords, EltTy.bits .f32 = 32 ∨ (Rect.block (s := S50000x128) S5000x128.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x128.size a ≤ S50000x128.size a
  hwx9_6 : ∀ i : grid9.Coords, EltTy.bits .f32 = 32 ∨ (Rect.block (s := S50000x128) S5000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S5000x1.size a ≤ S50000x1.size a
  hwx11_6 : ∀ i : grid11.Coords, EltTy.bits .f32 = 32 ∨ (Rect.block (s := S50000x1) S5000x1.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S5000x128.size a ≤ S50000x128.size a
  hwx11_7 : ∀ i : grid11.Coords, EltTy.bits .f32 = 32 ∨ (Rect.block (s := S50000x128) S5000x128.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S5000x128.size a ≤ S50000x128.size a
  hwx11_8 : ∀ i : grid11.Coords, EltTy.bits .f32 = 32 ∨ (Rect.block (s := S50000x128) S5000x128.size (cc11_transform_8 i) (hinb11_8 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x128.size a ≤ S50000x128.size a
  hwx12_2 : ∀ i : grid12.Coords, EltTy.bits .f32 = 32 ∨ (Rect.block (s := S50000x128) S5000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x128.size a ≤ S1x128.size a
  hwx13_5 : ∀ i : grid13.Coords, EltTy.bits .f32 = 32 ∨ (Rect.block (s := S1x128) S1x128.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S5000x128.size a ≤ S50000x128.size a
  hwx13_6 : ∀ i : grid13.Coords, EltTy.bits .f32 = 32 ∨ (Rect.block (s := S50000x128) S5000x128.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x128.size a ≤ S50000x128.size a
  hwx14_2 : ∀ i : grid14.Coords, EltTy.bits .f32 = 32 ∨ (Rect.block (s := S50000x128) S5000x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S1x128.size a ≤ S1x128.size a
  hwx15_5 : ∀ i : grid15.Coords, EltTy.bits .f32 = 32 ∨ (Rect.block (s := S1x128) S1x128.size (cc15_transform_5 i) (hinb15_5 i)).WholeWords (EltTy.packing .f32)
  hstage15_6 : ∀ j, (stage15_6 j).IsWhole
  nbuf15_6 : grid15.bufCount reads15_6 false = 2
  hreads15_6 : ∀ i i' : grid15.Coords, (∀ a, reads15_6 a = true → i a = i' a) → cc15_transform_6 i = cc15_transform_6 i'
  hinb15_6 : ∀ (i : grid15.Coords) a, (cc15_transform_6 i a + 1) * S5000x1.size a ≤ S50000x1.size a
  hwx15_6 : ∀ i : grid15.Coords, EltTy.bits .f32 = 32 ∨ (Rect.block (s := S50000x1) S5000x1.size (cc15_transform_6 i) (hinb15_6 i)).WholeWords (EltTy.packing .f32)
  hstage15_7 : ∀ j, (stage15_7 j).IsWhole
  nbuf15_7 : grid15.bufCount reads15_7 false = 2
  hreads15_7 : ∀ i i' : grid15.Coords, (∀ a, reads15_7 a = true → i a = i' a) → cc15_transform_7 i = cc15_transform_7 i'
  hinb15_7 : ∀ (i : grid15.Coords) a, (cc15_transform_7 i a + 1) * S5000x128.size a ≤ S50000x128.size a
  hwx15_7 : ∀ i : grid15.Coords, EltTy.bits .f32 = 32 ∨ (Rect.block (s := S50000x128) S5000x128.size (cc15_transform_7 i) (hinb15_7 i)).WholeWords (EltTy.packing .f32)
  hstage15_8 : ∀ j, (stage15_8 j).IsWhole
  nbuf15_8 : grid15.bufCount reads15_8 false = 2
  hreads15_8 : ∀ i i' : grid15.Coords, (∀ a, reads15_8 a = true → i a = i' a) → cc15_transform_8 i = cc15_transform_8 i'
  hinb15_8 : ∀ (i : grid15.Coords) a, (cc15_transform_8 i a + 1) * S5000x128.size a ≤ S50000x128.size a
  hwx15_8 : ∀ i : grid15.Coords, EltTy.bits .f32 = 32 ∨ (Rect.block (s := S50000x128) S5000x128.size (cc15_transform_8 i) (hinb15_8 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v66) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v81) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v84) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v85) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v85) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v88) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v106) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v117) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v118) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v121) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v124) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v125) S5000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v45) S5000x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v126) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v128) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v129) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v147) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v158) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v159) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v162) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v165) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v44) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v166) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v166) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v168) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v169) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v187) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v198) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v199) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v202) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v205) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v44) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v206) S5000x1.size cc7_transform_6 reads7_6 false false 2 stage7_6 sem7_6
    hrank7 hreads7_6 hinb7_6 nbuf7_6 (Memref.isWhole_whole _) hwx7_6 hstage7_6

abbrev win7_7 : Pipeline.Window sig grid7 :=
  Pipeline.Window.ofSpec (Memref.whole main_v126) S5000x128.size cc7_transform_7 reads7_7 false false 2 stage7_7 sem7_7
    hrank7 hreads7_7 hinb7_7 nbuf7_7 (Memref.isWhole_whole _) hwx7_7 hstage7_7

abbrev win7_8 : Pipeline.Window sig grid7 :=
  Pipeline.Window.ofSpec (Memref.whole main_v207) S5000x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_arg0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v209) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v210) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v228) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v239) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v240) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v243) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v246) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v44) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v247) S5000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v247) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v249) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v250) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v268) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v279) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v280) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v283) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v286) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v44) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v287) S5000x1.size cc11_transform_6 reads11_6 false false 2 stage11_6 sem11_6
    hrank11 hreads11_6 hinb11_6 nbuf11_6 (Memref.isWhole_whole _) hwx11_6 hstage11_6

abbrev win11_7 : Pipeline.Window sig grid11 :=
  Pipeline.Window.ofSpec (Memref.whole main_v207) S5000x128.size cc11_transform_7 reads11_7 false false 2 stage11_7 sem11_7
    hrank11 hreads11_7 hinb11_7 nbuf11_7 (Memref.isWhole_whole _) hwx11_7 hstage11_7

abbrev win11_8 : Pipeline.Window sig grid11 :=
  Pipeline.Window.ofSpec (Memref.whole main_v288) S5000x128.size cc11_transform_8 reads11_8 true false 2 stage11_8 sem11_8
    hrank11 hreads11_8 hinb11_8 nbuf11_8 (Memref.isWhole_whole _) hwx11_8 hstage11_8

abbrev win11 : Fin 9 → Pipeline.Window sig grid11 := fun | 0 => win11_0 | 1 => win11_1 | 2 => win11_2 | 3 => win11_3 | 4 => win11_4 | 5 => win11_5 | 6 => win11_6 | 7 => win11_7 | 8 => win11_8 | ⟨_ + 9, h⟩ => absurd h (Nat.not_lt.2 (Nat.le_add_left _ _))
abbrev spec11 : Fin 9 → Pipeline.WinSpec sig grid11.rank := fun w => (win11 w).toWinSpec

abbrev win12_0 : Pipeline.Window sig grid12 :=
  Pipeline.Window.ofSpec (Memref.whole main_arg0) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v290) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v291) S5000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v309) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v320) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v321) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v324) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v327) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v44) S1x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v328) S5000x128.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v328) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v330) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v331) S5000x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v349) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v360) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v361) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v364) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v367) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v44) S1x128.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v368) S5000x1.size cc15_transform_6 reads15_6 false false 2 stage15_6 sem15_6
    hrank15 hreads15_6 hinb15_6 nbuf15_6 (Memref.isWhole_whole _) hwx15_6 hstage15_6

abbrev win15_7 : Pipeline.Window sig grid15 :=
  Pipeline.Window.ofSpec (Memref.whole main_v288) S5000x128.size cc15_transform_7 reads15_7 false false 2 stage15_7 sem15_7
    hrank15 hreads15_7 hinb15_7 nbuf15_7 (Memref.isWhole_whole _) hwx15_7 hstage15_7

abbrev win15_8 : Pipeline.Window sig grid15 :=
  Pipeline.Window.ofSpec (Memref.whole main_v369) S5000x128.size cc15_transform_8 reads15_8 true false 2 stage15_8 sem15_8
    hrank15 hreads15_8 hinb15_8 nbuf15_8 (Memref.isWhole_whole _) hwx15_8 hstage15_8

abbrev win15 : Fin 9 → Pipeline.Window sig grid15 := fun | 0 => win15_0 | 1 => win15_1 | 2 => win15_2 | 3 => win15_3 | 4 => win15_4 | 5 => win15_5 | 6 => win15_6 | 7 => win15_7 | 8 => win15_8 | ⟨_ + 9, h⟩ => absurd h (Nat.not_lt.2 (Nat.le_add_left _ _))
abbrev spec15 : Fin 9 → Pipeline.WinSpec sig grid15.rank := fun w => (win15 w).toWinSpec

class Facts : Prop extends Facts₀ where
  halias3_8 : Pipeline.Aliased win3 7 8
  halias7_8 : Pipeline.Aliased win7 7 8
  halias11_8 : Pipeline.Aliased win11 7 8
  halias15_8 : Pipeline.Aliased win15 7 8

variable [Facts]
-- ==== ReferenceIdeal.lean ====
abbrev S50000x128 : Shape := ⟨2, ![50000, 128]⟩
abbrev S2x800000 : Shape := ⟨2, ![2, 800000]⟩
abbrev S4x128x128 : Shape := ⟨3, ![4, 128, 128]⟩
abbrev S4x128 : Shape := ⟨2, ![4, 128]⟩
abbrev S_ : Shape := ⟨0, ![]⟩
abbrev S50000x4 : Shape := ⟨2, ![50000, 4]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S850000x1 : Shape := ⟨2, ![850000, 1]⟩
abbrev S50000x1 : Shape := ⟨2, ![50000, 1]⟩
abbrev S1x128x128 : Shape := ⟨3, ![1, 128, 128]⟩
abbrev S128x128 : Shape := ⟨2, ![128, 128]⟩
abbrev S850000x128 : Shape := ⟨2, ![850000, 128]⟩
abbrev S1x128 : Shape := ⟨2, ![1, 128]⟩
abbrev S128 : Shape := ⟨1, ![128]⟩

abbrev nBuf : Space → Nat
  | .hbm => 599
  | .vmem => 0
  | .smem => 0
  | _ => 0

abbrev hbmTy0_0 (i : Nat) : BufTy := match i % 128 with
  | 0 => ⟨S50000x128, .f32⟩
  | 1 => ⟨S2x800000, .i32⟩
  | 2 => ⟨S4x128x128, .f32⟩
  | 3 => ⟨S4x128, .f32⟩
  | 4 => ⟨S4x128x128, .f32⟩
  | 5 => ⟨S4x128, .f32⟩
  | 6 => ⟨S4x128, .f32⟩
  | 7 => ⟨S4x128, .f32⟩
  | 8 => ⟨S4x128, .f32⟩
  | 9 => ⟨S4x128, .f32⟩
  | 10 => ⟨S_, .f32⟩
  | 11 => ⟨S50000x4, .f32⟩
  | 12 => ⟨S1x800000, .i32⟩
  | 13 => ⟨S800000, .i32⟩
  | 14 => ⟨S1x800000, .i32⟩
  | 15 => ⟨S800000, .i32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .f32⟩
  | 56 => ⟨S50000, .f32⟩
  | 57 => ⟨S_, .f32⟩
  | 58 => ⟨S50000, .f32⟩
  | 59 => ⟨S50000, .f32⟩
  | 60 => ⟨S50000x1, .f32⟩
  | 61 => ⟨S50000x4, .f32⟩
  | 62 => ⟨S50000x4, .f32⟩
  | 63 => ⟨S50000x4, .f32⟩
  | 64 => ⟨S_, .f32⟩
  | 65 => ⟨S50000, .f32⟩
  | 66 => ⟨S50000x1, .f32⟩
  | 67 => ⟨S50000x4, .f32⟩
  | 68 => ⟨S50000x4, .f32⟩
  | 69 => ⟨S_, .f32⟩
  | 70 => ⟨S50000x128, .f32⟩
  | 71 => ⟨S1x128x128, .f32⟩
  | 72 => ⟨S128x128, .f32⟩
  | 73 => ⟨S50000x128, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x128, .f32⟩
  | 83 => ⟨S850000x1, .f32⟩
  | 84 => ⟨S850000x128, .f32⟩
  | 85 => ⟨S850000x128, .f32⟩
  | 86 => ⟨S_, .f32⟩
  | 87 => ⟨S50000x128, .f32⟩
  | 88 => ⟨S850000x1, .i32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S128, .f32⟩
  | 97 => ⟨S1x128, .f32⟩
  | 98 => ⟨S128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S50000x128, .f32⟩
  | 108 => ⟨S_, .f32⟩
  | 109 => ⟨S128, .f32⟩
  | 110 => ⟨S_, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S128, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .i1⟩
  | 4 => ⟨S50000x128, .f32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x128, .f32⟩
  | 19 => ⟨S850000x1, .f32⟩
  | 20 => ⟨S850000x128, .f32⟩
  | 21 => ⟨S850000x128, .f32⟩
  | 22 => ⟨S_, .f32⟩
  | 23 => ⟨S50000x128, .f32⟩
  | 24 => ⟨S850000x1, .i32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S128, .f32⟩
  | 33 => ⟨S1x128, .f32⟩
  | 34 => ⟨S128, .f32⟩
  | 35 => ⟨S_, .f32⟩
  | 36 => ⟨S128, .f32⟩
  | 37 => ⟨S_, .f32⟩
  | 38 => ⟨S128, .f32⟩
  | 39 => ⟨S128, .f32⟩
  | 40 => ⟨S1x128, .f32⟩
  | 41 => ⟨S50000x128, .f32⟩
  | 42 => ⟨S50000x128, .f32⟩
  | 43 => ⟨S50000x128, .f32⟩
  | 44 => ⟨S_, .f32⟩
  | 45 => ⟨S128, .f32⟩
  | 46 => ⟨S_, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S_, .f32⟩
  | 53 => ⟨S128, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S50000x128, .f32⟩
  | 69 => ⟨S50000x128, .f32⟩
  | 70 => ⟨S50000x128, .f32⟩
  | 71 => ⟨S50000x1, .f32⟩
  | 72 => ⟨S50000x128, .f32⟩
  | 73 => ⟨S50000x128, .f32⟩
  | 74 => ⟨S50000x128, .f32⟩
  | 75 => ⟨S1x128x128, .f32⟩
  | 76 => ⟨S128x128, .f32⟩
  | 77 => ⟨S50000x128, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x128, .f32⟩
  | 87 => ⟨S850000x1, .f32⟩
  | 88 => ⟨S850000x128, .f32⟩
  | 89 => ⟨S850000x128, .f32⟩
  | 90 => ⟨S_, .f32⟩
  | 91 => ⟨S50000x128, .f32⟩
  | 92 => ⟨S850000x1, .i32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S128, .f32⟩
  | 101 => ⟨S1x128, .f32⟩
  | 102 => ⟨S128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S_, .f32⟩
  | 121 => ⟨S128, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .i1⟩
  | 8 => ⟨S50000x128, .f32⟩
  | 9 => ⟨S50000x128, .f32⟩
  | 10 => ⟨S50000x128, .f32⟩
  | 11 => ⟨S1x128x128, .f32⟩
  | 12 => ⟨S128x128, .f32⟩
  | 13 => ⟨S50000x128, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x128, .f32⟩
  | 23 => ⟨S850000x1, .f32⟩
  | 24 => ⟨S850000x128, .f32⟩
  | 25 => ⟨S850000x128, .f32⟩
  | 26 => ⟨S_, .f32⟩
  | 27 => ⟨S50000x128, .f32⟩
  | 28 => ⟨S850000x1, .i32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S128, .f32⟩
  | 37 => ⟨S1x128, .f32⟩
  | 38 => ⟨S128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .i1⟩
  | 72 => ⟨S50000x128, .f32⟩
  | 73 => ⟨S50000x128, .f32⟩
  | 74 => ⟨S50000x128, .f32⟩
  | 75 => ⟨S50000x1, .f32⟩
  | 76 => ⟨S50000x128, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x128, .f32⟩
  | 91 => ⟨S850000x1, .f32⟩
  | 92 => ⟨S850000x128, .f32⟩
  | 93 => ⟨S850000x128, .f32⟩
  | 94 => ⟨S_, .f32⟩
  | 95 => ⟨S50000x128, .f32⟩
  | 96 => ⟨S850000x1, .i32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S128, .f32⟩
  | 107 => ⟨S_, .f32⟩
  | 108 => ⟨S128, .f32⟩
  | 109 => ⟨S_, .f32⟩
  | 110 => ⟨S128, .f32⟩
  | 111 => ⟨S128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S128, .f32⟩
  | 118 => ⟨S_, .f32⟩
  | 119 => ⟨S128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S128, .f32⟩
  | 126 => ⟨S128, .f32⟩
  | 127 => ⟨S128, .f32⟩
  | _ => ⟨S50000x128, .f32⟩

abbrev hbmTy0_3 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .i1⟩
  | 12 => ⟨S50000x128, .f32⟩
  | 13 => ⟨S50000x128, .f32⟩
  | 14 => ⟨S50000x128, .f32⟩
  | 15 => ⟨S1x128x128, .f32⟩
  | 16 => ⟨S128x128, .f32⟩
  | 17 => ⟨S50000x128, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x128, .f32⟩
  | 27 => ⟨S850000x1, .f32⟩
  | 28 => ⟨S850000x128, .f32⟩
  | 29 => ⟨S850000x128, .f32⟩
  | 30 => ⟨S_, .f32⟩
  | 31 => ⟨S50000x128, .f32⟩
  | 32 => ⟨S850000x1, .i32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S128, .f32⟩
  | 41 => ⟨S1x128, .f32⟩
  | 42 => ⟨S128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .i1⟩
  | 76 => ⟨S50000x128, .f32⟩
  | 77 => ⟨S50000x128, .f32⟩
  | 78 => ⟨S50000x128, .f32⟩
  | 79 => ⟨S50000x1, .f32⟩
  | 80 => ⟨S50000x128, .f32⟩
  | 81 => ⟨S50000x128, .f32⟩
  | 82 => ⟨S50000x128, .f32⟩
  | 83 => ⟨S1x128x128, .f32⟩
  | 84 => ⟨S128x128, .f32⟩
  | 85 => ⟨S50000x128, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S850000x1, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S128, .f32⟩
  | 109 => ⟨S1x128, .f32⟩
  | 110 => ⟨S128, .f32⟩
  | 111 => ⟨S_, .f32⟩
  | 112 => ⟨S128, .f32⟩
  | 113 => ⟨S_, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S128, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_4 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .i1⟩
  | 16 => ⟨S50000x128, .f32⟩
  | 17 => ⟨S50000x128, .f32⟩
  | 18 => ⟨S50000x128, .f32⟩
  | 19 => ⟨S1x128x128, .f32⟩
  | 20 => ⟨S128x128, .f32⟩
  | 21 => ⟨S50000x128, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000x128, .f32⟩
  | 31 => ⟨S850000x1, .f32⟩
  | 32 => ⟨S850000x128, .f32⟩
  | 33 => ⟨S850000x128, .f32⟩
  | 34 => ⟨S_, .f32⟩
  | 35 => ⟨S50000x128, .f32⟩
  | 36 => ⟨S850000x1, .i32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S1x128, .f32⟩
  | 44 => ⟨S128, .f32⟩
  | 45 => ⟨S1x128, .f32⟩
  | 46 => ⟨S128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S50000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .i1⟩
  | 80 => ⟨S50000x128, .f32⟩
  | 81 => ⟨S50000x128, .f32⟩
  | 82 => ⟨S50000x128, .f32⟩
  | 83 => ⟨S50000x1, .f32⟩
  | 84 => ⟨S50000x128, .f32⟩
  | 85 => ⟨S50000x128, .f32⟩
  | 86 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_c_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_cst_17 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_19 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_20 : Ref sig .tc := ⟨.hbm, 138, rfl⟩
abbrev main_v102 : Ref sig .tc := ⟨.hbm, 139, rfl⟩
abbrev main_v103 : Ref sig .tc := ⟨.hbm, 140, rfl⟩
abbrev main_c_21 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_22 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_23 : Ref sig .tc := ⟨.hbm, 163, rfl⟩
abbrev main_v124 : Ref sig .tc := ⟨.hbm, 164, rfl⟩
abbrev main_cst_24 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_25 : Ref sig .tc := ⟨.hbm, 172, rfl⟩
abbrev main_v131 : Ref sig .tc := ⟨.hbm, 173, rfl⟩
abbrev main_cst_26 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_27 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_28 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_c_29 : Ref sig .tc := ⟨.hbm, 206, rfl⟩
abbrev main_v161 : Ref sig .tc := ⟨.hbm, 207, rfl⟩
abbrev main_v162 : Ref sig .tc := ⟨.hbm, 208, rfl⟩
abbrev main_c_30 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_31 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_32 : Ref sig .tc := ⟨.hbm, 231, rfl⟩
abbrev main_v183 : Ref sig .tc := ⟨.hbm, 232, rfl⟩
abbrev main_cst_33 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_cst_34 : Ref sig .tc := ⟨.hbm, 240, rfl⟩
abbrev main_v190 : Ref sig .tc := ⟨.hbm, 241, rfl⟩
abbrev main_cst_35 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_36 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_cst_37 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_c_38 : Ref sig .tc := ⟨.hbm, 270, rfl⟩
abbrev main_v216 : Ref sig .tc := ⟨.hbm, 271, rfl⟩
abbrev main_v217 : Ref sig .tc := ⟨.hbm, 272, rfl⟩
abbrev main_c_39 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_cst_40 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_cst_41 : Ref sig .tc := ⟨.hbm, 295, rfl⟩
abbrev main_v238 : Ref sig .tc := ⟨.hbm, 296, rfl⟩
abbrev main_cst_42 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_cst_43 : Ref sig .tc := ⟨.hbm, 304, rfl⟩
abbrev main_v245 : Ref sig .tc := ⟨.hbm, 305, rfl⟩
abbrev main_cst_44 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_cst_45 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_cst_46 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_c_47 : Ref sig .tc := ⟨.hbm, 338, rfl⟩
abbrev main_v275 : Ref sig .tc := ⟨.hbm, 339, rfl⟩
abbrev main_v276 : Ref sig .tc := ⟨.hbm, 340, rfl⟩
abbrev main_c_48 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_cst_49 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_cst_50 : Ref sig .tc := ⟨.hbm, 363, rfl⟩
abbrev main_v297 : Ref sig .tc := ⟨.hbm, 364, rfl⟩
abbrev main_cst_51 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_cst_52 : Ref sig .tc := ⟨.hbm, 372, rfl⟩
abbrev main_v304 : Ref sig .tc := ⟨.hbm, 373, rfl⟩
abbrev main_cst_53 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_cst_54 : Ref sig .tc := ⟨.hbm, 380, rfl⟩
abbrev main_v310 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_v320 : Ref sig .tc := ⟨.hbm, 391, rfl⟩
abbrev main_v321 : Ref sig .tc := ⟨.hbm, 392, rfl⟩
abbrev main_cst_55 : Ref sig .tc := ⟨.hbm, 393, rfl⟩
abbrev main_v322 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_c_56 : Ref sig .tc := ⟨.hbm, 402, rfl⟩
abbrev main_v330 : Ref sig .tc := ⟨.hbm, 403, rfl⟩
abbrev main_v331 : Ref sig .tc := ⟨.hbm, 404, rfl⟩
abbrev main_c_57 : Ref sig .tc := ⟨.hbm, 405, rfl⟩
abbrev main_v332 : Ref sig .tc := ⟨.hbm, 406, rfl⟩
abbrev main_v333 : Ref sig .tc := ⟨.hbm, 407, rfl⟩
abbrev main_v334 : Ref sig .tc := ⟨.hbm, 408, rfl⟩
abbrev main_v335 : Ref sig .tc := ⟨.hbm, 409, rfl⟩
abbrev main_v336 : Ref sig .tc := ⟨.hbm, 410, rfl⟩
abbrev main_v337 : Ref sig .tc := ⟨.hbm, 411, rfl⟩
abbrev main_v338 : Ref sig .tc := ⟨.hbm, 412, rfl⟩
abbrev main_v339 : Ref sig .tc := ⟨.hbm, 413, rfl⟩
abbrev main_cst_58 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_v350 : Ref sig .tc := ⟨.hbm, 425, rfl⟩
abbrev main_v351 : Ref sig .tc := ⟨.hbm, 426, rfl⟩
abbrev main_cst_59 : Ref sig .tc := ⟨.hbm, 427, rfl⟩
abbrev main_v352 : Ref sig .tc := ⟨.hbm, 428, rfl⟩
abbrev main_cst_60 : Ref sig .tc := ⟨.hbm, 429, rfl⟩
abbrev main_v353 : Ref sig .tc := ⟨.hbm, 430, rfl⟩
abbrev main_v354 : Ref sig .tc := ⟨.hbm, 431, rfl⟩
abbrev main_v355 : Ref sig .tc := ⟨.hbm, 432, rfl⟩
abbrev main_v356 : Ref sig .tc := ⟨.hbm, 433, rfl⟩
abbrev main_v357 : Ref sig .tc := ⟨.hbm, 434, rfl⟩
abbrev main_v358 : Ref sig .tc := ⟨.hbm, 435, rfl⟩
abbrev main_cst_61 : Ref sig .tc := ⟨.hbm, 436, rfl⟩
abbrev main_v359 : Ref sig .tc := ⟨.hbm, 437, rfl⟩
abbrev main_cst_62 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_v363 : Ref sig .tc := ⟨.hbm, 442, rfl⟩
abbrev main_v364 : Ref sig .tc := ⟨.hbm, 443, rfl⟩
abbrev main_cst_63 : Ref sig .tc := ⟨.hbm, 444, rfl⟩
abbrev main_v365 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_v371 : Ref sig .tc := ⟨.hbm, 451, rfl⟩
abbrev main_v372 : Ref sig .tc := ⟨.hbm, 452, rfl⟩
abbrev main_v373 : Ref sig .tc := ⟨.hbm, 453, rfl⟩
abbrev main_v374 : Ref sig .tc := ⟨.hbm, 454, rfl⟩
abbrev main_v375 : Ref sig .tc := ⟨.hbm, 455, rfl⟩
abbrev main_v376 : Ref sig .tc := ⟨.hbm, 456, rfl⟩
abbrev main_cst_64 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_c_65 : Ref sig .tc := ⟨.hbm, 470, rfl⟩
abbrev main_v389 : Ref sig .tc := ⟨.hbm, 471, rfl⟩
abbrev main_v390 : Ref sig .tc := ⟨.hbm, 472, rfl⟩
abbrev main_c_66 : Ref sig .tc := ⟨.hbm, 473, rfl⟩
abbrev main_v391 : Ref sig .tc := ⟨.hbm, 474, rfl⟩
abbrev main_v392 : Ref sig .tc := ⟨.hbm, 475, rfl⟩
abbrev main_v393 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩
abbrev main_v397 : Ref sig .tc := ⟨.hbm, 480, rfl⟩
abbrev main_v398 : Ref sig .tc := ⟨.hbm, 481, rfl⟩
abbrev main_cst_67 : Ref sig .tc := ⟨.hbm, 482, rfl⟩
abbrev main_v399 : Ref sig .tc := ⟨.hbm, 483, rfl⟩
abbrev main_v400 : Ref sig .tc := ⟨.hbm, 484, rfl⟩
abbrev main_v401 : Ref sig .tc := ⟨.hbm, 485, rfl⟩
abbrev main_v402 : Ref sig .tc := ⟨.hbm, 486, rfl⟩
abbrev main_v403 : Ref sig .tc := ⟨.hbm, 487, rfl⟩
abbrev main_v404 : Ref sig .tc := ⟨.hbm, 488, rfl⟩
abbrev main_v405 : Ref sig .tc := ⟨.hbm, 489, rfl⟩
abbrev main_v406 : Ref sig .tc := ⟨.hbm, 490, rfl⟩
abbrev main_v407 : Ref sig .tc := ⟨.hbm, 491, rfl⟩
abbrev main_v408 : Ref sig .tc := ⟨.hbm, 492, rfl⟩
abbrev main_v409 : Ref sig .tc := ⟨.hbm, 493, rfl⟩
abbrev main_v410 : Ref sig .tc := ⟨.hbm, 494, rfl⟩
abbrev main_cst_68 : Ref sig .tc := ⟨.hbm, 495, rfl⟩
abbrev main_v411 : Ref sig .tc := ⟨.hbm, 496, rfl⟩
abbrev main_cst_69 : Ref sig .tc := ⟨.hbm, 497, rfl⟩
abbrev main_v412 : Ref sig .tc := ⟨.hbm, 498, rfl⟩
abbrev main_v413 : Ref sig .tc := ⟨.hbm, 499, rfl⟩
abbrev main_v414 : Ref sig .tc := ⟨.hbm, 500, rfl⟩
abbrev main_v415 : Ref sig .tc := ⟨.hbm, 501, rfl⟩
abbrev main_v416 : Ref sig .tc := ⟨.hbm, 502, rfl⟩
abbrev main_v417 : Ref sig .tc := ⟨.hbm, 503, rfl⟩
abbrev main_cst_70 : Ref sig .tc := ⟨.hbm, 504, rfl⟩
abbrev main_v418 : Ref sig .tc := ⟨.hbm, 505, rfl⟩
abbrev main_cst_71 : Ref sig .tc := ⟨.hbm, 506, rfl⟩
abbrev main_v419 : Ref sig .tc := ⟨.hbm, 507, rfl⟩
abbrev main_v420 : Ref sig .tc := ⟨.hbm, 508, rfl⟩
abbrev main_v421 : Ref sig .tc := ⟨.hbm, 509, rfl⟩
abbrev main_v422 : Ref sig .tc := ⟨.hbm, 510, rfl⟩
abbrev main_v423 : Ref sig .tc := ⟨.hbm, 511, rfl⟩
abbrev main_cst_72 : Ref sig .tc := ⟨.hbm, 512, rfl⟩
abbrev main_v424 : Ref sig .tc := ⟨.hbm, 513, rfl⟩
abbrev main_v425 : Ref sig .tc := ⟨.hbm, 514, rfl⟩
abbrev main_v426 : Ref sig .tc := ⟨.hbm, 515, rfl⟩
abbrev main_v427 : Ref sig .tc := ⟨.hbm, 516, rfl⟩
abbrev main_v428 : Ref sig .tc := ⟨.hbm, 517, rfl⟩
abbrev main_v429 : Ref sig .tc := ⟨.hbm, 518, rfl⟩
abbrev main_v430 : Ref sig .tc := ⟨.hbm, 519, rfl⟩
abbrev main_v431 : Ref sig .tc := ⟨.hbm, 520, rfl⟩
abbrev main_v432 : Ref sig .tc := ⟨.hbm, 521, rfl⟩
abbrev main_v433 : Ref sig .tc := ⟨.hbm, 522, rfl⟩
abbrev main_v434 : Ref sig .tc := ⟨.hbm, 523, rfl⟩
abbrev main_v435 : Ref sig .tc := ⟨.hbm, 524, rfl⟩
abbrev main_cst_73 : Ref sig .tc := ⟨.hbm, 525, rfl⟩
abbrev main_v436 : Ref sig .tc := ⟨.hbm, 526, rfl⟩
abbrev main_v437 : Ref sig .tc := ⟨.hbm, 527, rfl⟩
abbrev main_v438 : Ref sig .tc := ⟨.hbm, 528, rfl⟩
abbrev main_v439 : Ref sig .tc := ⟨.hbm, 529, rfl⟩
abbrev main_v440 : Ref sig .tc := ⟨.hbm, 530, rfl⟩
abbrev main_v441 : Ref sig .tc := ⟨.hbm, 531, rfl⟩
abbrev main_v442 : Ref sig .tc := ⟨.hbm, 532, rfl⟩
abbrev main_v443 : Ref sig .tc := ⟨.hbm, 533, rfl⟩
abbrev main_c_74 : Ref sig .tc := ⟨.hbm, 534, rfl⟩
abbrev main_v444 : Ref sig .tc := ⟨.hbm, 535, rfl⟩
abbrev main_v445 : Ref sig .tc := ⟨.hbm, 536, rfl⟩
abbrev main_c_75 : Ref sig .tc := ⟨.hbm, 537, rfl⟩
abbrev main_v446 : Ref sig .tc := ⟨.hbm, 538, rfl⟩
abbrev main_v447 : Ref sig .tc := ⟨.hbm, 539, rfl⟩
abbrev main_v448 : Ref sig .tc := ⟨.hbm, 540, rfl⟩
abbrev main_v449 : Ref sig .tc := ⟨.hbm, 541, rfl⟩
abbrev main_v450 : Ref sig .tc := ⟨.hbm, 542, rfl⟩
abbrev main_v451 : Ref sig .tc := ⟨.hbm, 543, rfl⟩
abbrev main_v452 : Ref sig .tc := ⟨.hbm, 544, rfl⟩
abbrev main_v453 : Ref sig .tc := ⟨.hbm, 545, rfl⟩
abbrev main_cst_76 : Ref sig .tc := ⟨.hbm, 546, rfl⟩
abbrev main_v454 : Ref sig .tc := ⟨.hbm, 547, rfl⟩
abbrev main_v455 : Ref sig .tc := ⟨.hbm, 548, rfl⟩
abbrev main_v456 : Ref sig .tc := ⟨.hbm, 549, rfl⟩
abbrev main_v457 : Ref sig .tc := ⟨.hbm, 550, rfl⟩
abbrev main_v458 : Ref sig .tc := ⟨.hbm, 551, rfl⟩
abbrev main_v459 : Ref sig .tc := ⟨.hbm, 552, rfl⟩
abbrev main_v460 : Ref sig .tc := ⟨.hbm, 553, rfl⟩
abbrev main_v461 : Ref sig .tc := ⟨.hbm, 554, rfl⟩
abbrev main_v462 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_cst_77 : Ref sig .tc := ⟨.hbm, 559, rfl⟩
abbrev main_v466 : Ref sig .tc := ⟨.hbm, 560, rfl⟩
abbrev main_cst_78 : Ref sig .tc := ⟨.hbm, 561, rfl⟩
abbrev main_v467 : Ref sig .tc := ⟨.hbm, 562, rfl⟩
abbrev main_v468 : Ref sig .tc := ⟨.hbm, 563, rfl⟩
abbrev main_v469 : Ref sig .tc := ⟨.hbm, 564, rfl⟩
abbrev main_v470 : Ref sig .tc := ⟨.hbm, 565, rfl⟩
abbrev main_v471 : Ref sig .tc := ⟨.hbm, 566, rfl⟩
abbrev main_v472 : Ref sig .tc := ⟨.hbm, 567, rfl⟩
abbrev main_cst_79 : Ref sig .tc := ⟨.hbm, 568, rfl⟩
abbrev main_v473 : Ref sig .tc := ⟨.hbm, 569, rfl⟩
abbrev main_cst_80 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_v478 : Ref sig .tc := ⟨.hbm, 575, rfl⟩
abbrev main_cst_81 : Ref sig .tc := ⟨.hbm, 576, rfl⟩
abbrev main_v479 : Ref sig .tc := ⟨.hbm, 577, rfl⟩
abbrev main_v480 : Ref sig .tc := ⟨.hbm, 578, rfl⟩
abbrev main_v481 : Ref sig .tc := ⟨.hbm, 579, rfl⟩
abbrev main_v482 : Ref sig .tc := ⟨.hbm, 580, rfl⟩
abbrev main_v483 : Ref sig .tc := ⟨.hbm, 581, rfl⟩
abbrev main_v484 : Ref sig .tc := ⟨.hbm, 582, rfl⟩
abbrev main_v485 : Ref sig .tc := ⟨.hbm, 583, rfl⟩
abbrev main_v486 : Ref sig .tc := ⟨.hbm, 584, rfl⟩
abbrev main_v487 : Ref sig .tc := ⟨.hbm, 585, rfl⟩
abbrev main_v488 : Ref sig .tc := ⟨.hbm, 586, rfl⟩
abbrev main_v489 : Ref sig .tc := ⟨.hbm, 587, rfl⟩
abbrev main_v490 : Ref sig .tc := ⟨.hbm, 588, rfl⟩
abbrev main_cst_82 : Ref sig .tc := ⟨.hbm, 589, rfl⟩
abbrev main_v491 : Ref sig .tc := ⟨.hbm, 590, rfl⟩
abbrev main_v492 : Ref sig .tc := ⟨.hbm, 591, rfl⟩
abbrev main_v493 : Ref sig .tc := ⟨.hbm, 592, rfl⟩
abbrev main_v494 : Ref sig .tc := ⟨.hbm, 593, rfl⟩
abbrev main_v495 : Ref sig .tc := ⟨.hbm, 594, rfl⟩
abbrev main_v496 : Ref sig .tc := ⟨.hbm, 595, rfl⟩
abbrev main_v497 : Ref sig .tc := ⟨.hbm, 596, rfl⟩
abbrev main_v498 : Ref sig .tc := ⟨.hbm, 597, rfl⟩
abbrev main_v499 : Ref sig .tc := ⟨.hbm, 598, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  reducesTo_S50000x4_S50000_d1 : S50000x4.ReducesTo [1] S50000
  h_S_ : 0 < S_.numel
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  slices_S50000x4_S50000x1_0_0 : S50000x4.Slices ![0, 0] S50000x1
  bcast_S50000x1_S50000x128_0_1 : S50000x1.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S50000x4_S50000x1_0_1 : S50000x4.Slices ![0, 1] S50000x1
  slices_S4x128x128_S1x128x128_2_0_0 : S4x128x128.Slices ![2, 0, 0] S1x128x128
  slices_S4x128_S1x128_2_0 : S4x128.Slices ![2, 0] S1x128
  slices_S50000x4_S50000x1_0_2 : S50000x4.Slices ![0, 2] S50000x1
  slices_S4x128x128_S1x128x128_3_0_0 : S4x128x128.Slices ![3, 0, 0] S1x128x128
  slices_S4x128_S1x128_3_0 : S4x128.Slices ![3, 0] S1x128
  slices_S50000x4_S50000x1_0_3 : S50000x4.Slices ![0, 3] S50000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.RefOps.lean ====
import proofs.«151858_j43868795961412_1_alg».proof.Proof.Gen.ReferenceIdeal
import Idealize.ShloMosaic.Lib.StableHlo.Run

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- The reference's 587 operations in program order, cut into 34 chunks `rc0` … `rc33`. -/
abbrev rc0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0xBF000000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (Host.powf : (⟨S50000, .f32⟩ : BufTy).Contents (Elt F) → (⟨S50000, .f32⟩ : BufTy).Contents (Elt F) → (⟨S50000, .f32⟩ : BufTy).Contents (Elt F)),
    nullary main_cst_3 (constant S_ .f32 0x00000000#32) ]

abbrev rc1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v14) (TRef.of (T := ⟨S50000, .f32⟩) main_call0_v1) (TRef.of (T := ⟨S50000, .f32⟩) main_v15) select ]

abbrev rc2 : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v5 main_v16 main_v17 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v18 (broadcastInDim S850000 ![] bcast_S_S850000 : (⟨S_, .i32⟩ : BufTy).Contents (Elt F) → (⟨S850000, .i32⟩ : BufTy).Contents (Elt F)),
    binary main_v5 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v7 main_v23 (mulf : (⟨S850000, .f32⟩ : BufTy).Contents (Elt F) → (⟨S850000, .f32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v15 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)),
    nullary main_cst_7 (constant S_ .f32 0xFF800000#32),
    binary main_arg11 main_cst_7 main_v32 ((fun x v => Host.reduce FloatOps.maximumf x v reducesTo_S50000x4_S50000_d1 h_S_) : (⟨S50000x4, .f32⟩ : BufTy).Contents (Elt F) → (⟨S_, .f32⟩ : BufTy).Contents (Elt F) → (⟨S50000, .f32⟩ : BufTy).Contents (Elt F)),
    nullary main_cst_8 (constant S_ .f32 0xFF800000#32),
    unary main_cst_8 main_v33 (broadcastInDim S50000 ![] bcast_S_S50000 : (⟨S_, .f32⟩ : BufTy).Contents (Elt F) → (⟨S50000, .f32⟩ : BufTy).Contents (Elt F)),
    binary main_v33 main_v32 main_v34 (maximumf : (⟨S50000, .f32⟩ : BufTy).Contents (Elt F) → (⟨S50000, .f32⟩ : BufTy).Contents (Elt F) → (⟨S50000, .f32⟩ : BufTy).Contents (Elt F)),
    unary main_v34 main_v35 (broadcastInDim S50000x1 ![0] bcast_S50000_S50000x1_0 : (⟨S50000, .f32⟩ : BufTy).Contents (Elt F) → (⟨S50000x1, .f32⟩ : BufTy).Contents (Elt F)),
    unary main_v35 main_v36 (broadcastInDim S50000x4 ![0, 1] bcast_S50000x1_S50000x4_0_1 : (⟨S50000x1, .f32⟩ : BufTy).Contents (Elt F) → (⟨S50000x4, .f32⟩ : BufTy).Contents (Elt F)),
    binary main_arg11 main_v36 main_v37 (subf : (⟨S50000x4, .f32⟩ : BufTy).Contents (Elt F) → (⟨S50000x4, .f32⟩ : BufTy).Contents (Elt F) → (⟨S50000x4, .f32⟩ : BufTy).Contents (Elt F)),
    unary main_v37 main_v38 (Host.exp : (⟨S50000x4, .f32⟩ : BufTy).Contents (Elt F) → (⟨S50000x4, .f32⟩ : BufTy).Contents (Elt F)),
    nullary main_cst_9 (constant S_ .f32 0x00000000#32),
    binary main_v38 main_cst_9 main_v39 ((fun x v => Host.reduceAdd x v reducesTo_S50000x4_S50000_d1 h_S_) : (⟨S50000x4, .f32⟩ : BufTy).Contents (Elt F) → (⟨S_, .f32⟩ : BufTy).Contents (Elt F) → (⟨S50000, .f32⟩ : BufTy).Contents (Elt F)),
    unary main_v39 main_v40 (broadcastInDim S50000x1 ![0] bcast_S50000_S50000x1_0 : (⟨S50000, .f32⟩ : BufTy).Contents (Elt F) → (⟨S50000x1, .f32⟩ : BufTy).Contents (Elt F)),
    unary main_v40 main_v41 (broadcastInDim S50000x4 ![0, 1] bcast_S50000x1_S50000x4_0_1 : (⟨S50000x1, .f32⟩ : BufTy).Contents (Elt F) → (⟨S50000x4, .f32⟩ : BufTy).Contents (Elt F)),
    binary main_v38 main_v41 main_v42 (Host.divf : (⟨S50000x4, .f32⟩ : BufTy).Contents (Elt F) → (⟨S50000x4, .f32⟩ : BufTy).Contents (Elt F) → (⟨S50000x4, .f32⟩ : BufTy).Contents (Elt F)),
    nullary main_cst_10 (constant S_ .f32 0x00000000#32),
    unary main_cst_10 main_v43 (broadcastInDim S50000x128 ![] bcast_S_S50000x128 : (⟨S_, .f32⟩ : BufTy).Contents (Elt F) → (⟨S50000x128, .f32⟩ : BufTy).Contents (Elt F)),
    unary main_arg2 main_v44 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v44 main_v45 rfl shapeCasts_S1x128x128_S128x128 ]

abbrev rc3 : List (HloOp τ sig (Elt F)) :=
  [ binary main_arg0 main_v45 main_v46 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

abbrev rc4 : List (HloOp τ sig (Elt F)) :=
  [ nullary main_c_11 (constantI S_ 32 0#32),
    unary main_c_11 main_v47 (broadcastInDim S850000 ![] bcast_S_S850000 : (⟨S_, .i32⟩ : BufTy).Contents (Elt F) → (⟨S850000, .i32⟩ : BufTy).Contents (Elt F)),
    binary main_v5 main_v47 main_v48 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v49 (broadcastInDim S850000 ![] bcast_S_S850000 : (⟨S_, .i32⟩ : BufTy).Contents (Elt F) → (⟨S850000, .i32⟩ : BufTy).Contents (Elt F)),
    binary main_v5 main_v49 main_v50 (addi : (⟨S850000, .i32⟩ : BufTy).Contents (Elt F) → (⟨S850000, .i32⟩ : BufTy).Contents (Elt F) → (⟨S850000, .i32⟩ : BufTy).Contents (Elt F)),
    ternary main_v48 main_v50 main_v5 main_v51 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v51 main_v52 (broadcastInDim S850000x1 ![0] bcast_S850000_S850000x1_0 : (⟨S850000, .i32⟩ : BufTy).Contents (Elt F) → (⟨S850000x1, .i32⟩ : BufTy).Contents (Elt F)),
    binary main_v46 main_v52 main_v53 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v54 (broadcastInDim S850000x1 ![0] bcast_S850000_S850000x1_0 : (⟨S850000, .f32⟩ : BufTy).Contents (Elt F) → (⟨S850000x1, .f32⟩ : BufTy).Contents (Elt F)),
    unary main_v54 main_v55 (broadcastInDim S850000x128 ![0, 1] bcast_S850000x1_S850000x128_0_1 : (⟨S850000x1, .f32⟩ : BufTy).Contents (Elt F) → (⟨S850000x128, .f32⟩ : BufTy).Contents (Elt F)),
    binary main_v53 main_v55 main_v56 (mulf : (⟨S850000x128, .f32⟩ : BufTy).Contents (Elt F) → (⟨S850000x128, .f32⟩ : BufTy).Contents (Elt F) → (⟨S850000x128, .f32⟩ : BufTy).Contents (Elt F)),
    nullary main_cst_13 (constant S_ .f32 0x00000000#32),
    unary main_cst_13 main_v57 (broadcastInDim S50000x128 ![] bcast_S_S50000x128 : (⟨S_, .f32⟩ : BufTy).Contents (Elt F) → (⟨S50000x128, .f32⟩ : BufTy).Contents (Elt F)),
    unary main_v6 main_v58 (broadcastInDim S850000x1 ![0] bcast_S850000_S850000x1_0 : (⟨S850000, .i32⟩ : BufTy).Contents (Elt F) → (⟨S850000x1, .i32⟩ : BufTy).Contents (Elt F)),
    ternary main_v57 main_v58 main_v56 main_v59 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v60 ((extractStridedSlice S1x128 ![0, 0] · slices_S4x128_S1x128_0_0) : (⟨S4x128, .f32⟩ : BufTy).Contents (Elt F) → (⟨S1x128, .f32⟩ : BufTy).Contents (Elt F)),
    reshape main_v60 main_v61 rfl shapeCasts_S1x128_S128,
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v59 main_v63 main_v64 (addf : (⟨S50000x128, .f32⟩ : BufTy).Contents (Elt F) → (⟨S50000x128, .f32⟩ : BufTy).Contents (Elt F) → (⟨S50000x128, .f32⟩ : BufTy).Contents (Elt F)),
    unary main_arg6 main_v65 ((extractStridedSlice S1x128 ![0, 0] · slices_S4x128_S1x128_0_0) : (⟨S4x128, .f32⟩ : BufTy).Contents (Elt F) → (⟨S1x128, .f32⟩ : BufTy).Contents (Elt F)),
    reshape main_v65 main_v66 rfl shapeCasts_S1x128_S128,
    unary main_arg7 main_v67 ((extractStridedSlice S1x128 ![0, 0] · slices_S4x128_S1x128_0_0) : (⟨S4x128, .f32⟩ : BufTy).Contents (Elt F) → (⟨S1x128, .f32⟩ : BufTy).Contents (Elt F)),
    reshape main_v67 main_v68 rfl shapeCasts_S1x128_S128,
    nullary main_cst_14 (constant S_ .f32 0x00000000#32),
    binary main_v64 main_cst_14 main_v69 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_15 (constant S_ .f32 0x47435000#32),
    unary main_cst_15 main_v70 (broadcastInDim S128 ![] bcast_S_S128 : (⟨S_, .f32⟩ : BufTy).Contents (Elt F) → (⟨S128, .f32⟩ : BufTy).Contents (Elt F)),
    binary main_v69 main_v70 main_v71 (Host.divf : (⟨S128, .f32⟩ : BufTy).Contents (Elt F) → (⟨S128, .f32⟩ : BufTy).Contents (Elt F) → (⟨S128, .f32⟩ : BufTy).Contents (Elt F)),
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v64 main_v73 main_v74 (subf : (⟨S50000x128, .f32⟩ : BufTy).Contents (Elt F) → (⟨S50000x128, .f32⟩ : BufTy).Contents (Elt F) → (⟨S50000x128, .f32⟩ : BufTy).Contents (Elt F)),
    binary main_v74 main_v74 main_v75 (mulf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x00000000#32),
    binary main_v75 main_cst_16 main_v76 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_17 (constant S_ .f32 0x47435000#32),
    unary main_cst_17 main_v77 (broadcastInDim S128 ![] bcast_S_S128 : (⟨S_, .f32⟩ : BufTy).Contents (Elt F) → (⟨S128, .f32⟩ : BufTy).Contents (Elt F)),
    binary main_v76 main_v77 main_v78 (Host.divf : (⟨S128, .f32⟩ : BufTy).Contents (Elt F) → (⟨S128, .f32⟩ : BufTy).Contents (Elt F) → (⟨S128, .f32⟩ : BufTy).Contents (Elt F)) ]

abbrev rc5 : List (HloOp τ sig (Elt F)) :=
  [ unary main_v71 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v64 main_v80 main_v81 (subf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3727C5AC#32),
    unary main_cst_18 main_v82 (broadcastInDim S128 ![] bcast_S_S128 : (⟨S_, .f32⟩ : BufTy).Contents (Elt F) → (⟨S128, .f32⟩ : BufTy).Contents (Elt F)),
    binary main_v78 main_v82 main_v83 (addf : (⟨S128, .f32⟩ : BufTy).Contents (Elt F) → (⟨S128, .f32⟩ : BufTy).Contents (Elt F) → (⟨S128, .f32⟩ : BufTy).Contents (Elt F)),
    unary main_v83 main_v84 (Host.rsqrt : (⟨S128, .f32⟩ : BufTy).Contents (Elt F) → (⟨S128, .f32⟩ : BufTy).Contents (Elt F)),
    unary main_v84 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v81 main_v86 main_v87 (mulf : (⟨S50000x128, .f32⟩ : BufTy).Contents (Elt F) → (⟨S50000x128, .f32⟩ : BufTy).Contents (Elt F) → (⟨S50000x128, .f32⟩ : BufTy).Contents (Elt F)),
    unary main_v66 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v87 main_v89 main_v90 (mulf : (⟨S50000x128, .f32⟩ : BufTy).Contents (Elt F) → (⟨S50000x128, .f32⟩ : BufTy).Contents (Elt F) → (⟨S50000x128, .f32⟩ : BufTy).Contents (Elt F)),
    unary main_v68 main_v91 (broadcastInDim S1x128 ![1] bcast_S128_S1x128_1 : (⟨S128, .f32⟩ : BufTy).Contents (Elt F) → (⟨S1x128, .f32⟩ : BufTy).Contents (Elt F)),
    unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v90 main_v92 main_v93 (addf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    unary main_cst_19 main_v94 (broadcastInDim S50000x128 ![] bcast_S_S50000x128 : (⟨S_, .f32⟩ : BufTy).Contents (Elt F) → (⟨S50000x128, .f32⟩ : BufTy).Contents (Elt F)),
    binary main_v93 main_v94 main_v95 (cmpf .ogt : (⟨S50000x128, .f32⟩ : BufTy).Contents (Elt F) → (⟨S50000x128, .f32⟩ : BufTy).Contents (Elt F) → (⟨S50000x128, .i1⟩ : BufTy).Contents (Elt F)),
    unary main_arg10 main_v96 (broadcastInDim S50000x128 ![] bcast_S_S50000x128 : (⟨S_, .f32⟩ : BufTy).Contents (Elt F) → (⟨S50000x128, .f32⟩ : BufTy).Contents (Elt F)),
    binary main_v96 main_v93 main_v97 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v95) (TRef.of (T := ⟨S50000x128, .f32⟩) main_v93) (TRef.of (T := ⟨S50000x128, .f32⟩) main_v97) (TRef.of (T := ⟨S50000x128, .f32⟩) main_v98) select ]

abbrev rc6 : List (HloOp τ sig (Elt F)) :=
  [ unary main_arg4 main_v99 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v99 main_v100 rfl shapeCasts_S1x128x128_S128x128 ]

abbrev rc7 : List (HloOp τ sig (Elt F)) :=
  [ binary main_v98 main_v100 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

abbrev rc8 : List (HloOp τ sig (Elt F)) :=
  [ nullary main_c_20 (constantI S_ 32 0#32),
    unary main_c_20 main_v102 (broadcastInDim S850000 ![] bcast_S_S850000 : (⟨S_, .i32⟩ : BufTy).Contents (Elt F) → (⟨S850000, .i32⟩ : BufTy).Contents (Elt F)),
    binary main_v5 main_v102 main_v103 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v104 (broadcastInDim S850000 ![] bcast_S_S850000 : (⟨S_, .i32⟩ : BufTy).Contents (Elt F) → (⟨S850000, .i32⟩ : BufTy).Contents (Elt F)),
    binary main_v5 main_v104 main_v105 (addi : (⟨S850000, .i32⟩ : BufTy).Contents (Elt F) → (⟨S850000, .i32⟩ : BufTy).Contents (Elt F) → (⟨S850000, .i32⟩ : BufTy).Contents (Elt F)),
    ternary main_v103 main_v105 main_v5 main_v106 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v106 main_v107 (broadcastInDim S850000x1 ![0] bcast_S850000_S850000x1_0 : (⟨S850000, .i32⟩ : BufTy).Contents (Elt F) → (⟨S850000x1, .i32⟩ : BufTy).Contents (Elt F)),
    binary main_v101 main_v107 main_v108 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v109 (broadcastInDim S850000x1 ![0] bcast_S850000_S850000x1_0 : (⟨S850000, .f32⟩ : BufTy).Contents (Elt F) → (⟨S850000x1, .f32⟩ : BufTy).Contents (Elt F)),
    unary main_v109 main_v110 (broadcastInDim S850000x128 ![0, 1] bcast_S850000x1_S850000x128_0_1 : (⟨S850000x1, .f32⟩ : BufTy).Contents (Elt F) → (⟨S850000x128, .f32⟩ : BufTy).Contents (Elt F)),
    binary main_v108 main_v110 main_v111 (mulf : (⟨S850000x128, .f32⟩ : BufTy).Contents (Elt F) → (⟨S850000x128, .f32⟩ : BufTy).Contents (Elt F) → (⟨S850000x128, .f32⟩ : BufTy).Contents (Elt F)),
    nullary main_cst_22 (constant S_ .f32 0x00000000#32),
    unary main_cst_22 main_v112 (broadcastInDim S50000x128 ![] bcast_S_S50000x128 : (⟨S_, .f32⟩ : BufTy).Contents (Elt F) → (⟨S50000x128, .f32⟩ : BufTy).Contents (Elt F)),
    unary main_v6 main_v113 (broadcastInDim S850000x1 ![0] bcast_S850000_S850000x1_0 : (⟨S850000, .i32⟩ : BufTy).Contents (Elt F) → (⟨S850000x1, .i32⟩ : BufTy).Contents (Elt F)),
    ternary main_v112 main_v113 main_v111 main_v114 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v115 ((extractStridedSlice S1x128 ![0, 0] · slices_S4x128_S1x128_0_0) : (⟨S4x128, .f32⟩ : BufTy).Contents (Elt F) → (⟨S1x128, .f32⟩ : BufTy).Contents (Elt F)),
    reshape main_v115 main_v116 rfl shapeCasts_S1x128_S128,
    unary main_v116 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v114 main_v118 main_v119 (addf : (⟨S50000x128, .f32⟩ : BufTy).Contents (Elt F) → (⟨S50000x128, .f32⟩ : BufTy).Contents (Elt F) → (⟨S50000x128, .f32⟩ : BufTy).Contents (Elt F)),
    unary main_arg8 main_v120 ((extractStridedSlice S1x128 ![0, 0] · slices_S4x128_S1x128_0_0) : (⟨S4x128, .f32⟩ : BufTy).Contents (Elt F) → (⟨S1x128, .f32⟩ : BufTy).Contents (Elt F)),
    reshape main_v120 main_v121 rfl shapeCasts_S1x128_S128,
    unary main_arg9 main_v122 ((extractStridedSlice S1x128 ![0, 0] · slices_S4x128_S1x128_0_0) : (⟨S4x128, .f32⟩ : BufTy).Contents (Elt F) → (⟨S1x128, .f32⟩ : BufTy).Contents (Elt F)),
    reshape main_v122 main_v123 rfl shapeCasts_S1x128_S128,
    nullary main_cst_23 (constant S_ .f32 0x00000000#32),
    binary main_v119 main_cst_23 main_v124 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_24 (constant S_ .f32 0x47435000#32),
    unary main_cst_24 main_v125 (broadcastInDim S128 ![] bcast_S_S128 : (⟨S_, .f32⟩ : BufTy).Contents (Elt F) → (⟨S128, .f32⟩ : BufTy).Contents (Elt F)),
    binary main_v124 main_v125 main_v126 (Host.divf : (⟨S128, .f32⟩ : BufTy).Contents (Elt F) → (⟨S128, .f32⟩ : BufTy).Contents (Elt F) → (⟨S128, .f32⟩ : BufTy).Contents (Elt F)),
    unary main_v126 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v119 main_v128 main_v129 (subf : (⟨S50000x128, .f32⟩ : BufTy).Contents (Elt F) → (⟨S50000x128, .f32⟩ : BufTy).Contents (Elt F) → (⟨S50000x128, .f32⟩ : BufTy).Contents (Elt F)),
    binary main_v129 main_v129 main_v130 (mulf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v130 main_cst_25 main_v131 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v132 (broadcastInDim S128 ![] bcast_S_S128 : (⟨S_, .f32⟩ : BufTy).Contents (Elt F) → (⟨S128, .f32⟩ : BufTy).Contents (Elt F)),
    binary main_v131 main_v132 main_v133 (Host.divf : (⟨S128, .f32⟩ : BufTy).Contents (Elt F) → (⟨S128, .f32⟩ : BufTy).Contents (Elt F) → (⟨S128, .f32⟩ : BufTy).Contents (Elt F)) ]

abbrev rc9 : List (HloOp τ sig (Elt F)) :=
  [ unary main_v126 main_v134 (broadcastInDim S1x128 ![1] bcast_S128_S1x128_1 : (⟨S128, .f32⟩ : BufTy).Contents (Elt F) → (⟨S1x128, .f32⟩ : BufTy).Contents (Elt F)),
    unary main_v134 main_v135 (broadcastInDim S50000x128 ![0, 1] bcast_S1x128_S50000x128_0_1 : (⟨S1x128, .f32⟩ : BufTy).Contents (Elt F) → (⟨S50000x128, .f32⟩ : BufTy).Contents (Elt F)),
    binary main_v119 main_v135 main_v136 (subf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x3727C5AC#32),
    unary main_cst_27 main_v137 (broadcastInDim S128 ![] bcast_S_S128 : (⟨S_, .f32⟩ : BufTy).Contents (Elt F) → (⟨S128, .f32⟩ : BufTy).Contents (Elt F)),
    binary main_v133 main_v137 main_v138 (addf : (⟨S128, .f32⟩ : BufTy).Contents (Elt F) → (⟨S128, .f32⟩ : BufTy).Contents (Elt F) → (⟨S128, .f32⟩ : BufTy).Contents (Elt F)),
    unary main_v138 main_v139 (Host.rsqrt : (⟨S128, .f32⟩ : BufTy).Contents (Elt F) → (⟨S128, .f32⟩ : BufTy).Contents (Elt F)),
    unary main_v139 main_v140 (broadcastInDim S1x128 ![1] bcast_S128_S1x128_1 : (⟨S128, .f32⟩ : BufTy).Contents (Elt F) → (⟨S1x128, .f32⟩ : BufTy).Contents (Elt F)),
    unary main_v140 main_v141 (broadcastInDim S50000x128 ![0, 1] bcast_S1x128_S50000x128_0_1 : (⟨S1x128, .f32⟩ : BufTy).Contents (Elt F) → (⟨S50000x128, .f32⟩ : BufTy).Contents (Elt F)),
    binary main_v136 main_v141 main_v142 (mulf : (⟨S50000x128, .f32⟩ : BufTy).Contents (Elt F) → (⟨S50000x128, .f32⟩ : BufTy).Contents (Elt F) → (⟨S50000x128, .f32⟩ : BufTy).Contents (Elt F)),
    unary main_v121 main_v143 (broadcastInDim S1x128 ![1] bcast_S128_S1x128_1 : (⟨S128, .f32⟩ : BufTy).Contents (Elt F) → (⟨S1x128, .f32⟩ : BufTy).Contents (Elt F)),
    unary main_v143 main_v144 (broadcastInDim S50000x128 ![0, 1] bcast_S1x128_S50000x128_0_1 : (⟨S1x128, .f32⟩ : BufTy).Contents (Elt F) → (⟨S50000x128, .f32⟩ : BufTy).Contents (Elt F)),
    binary main_v142 main_v144 main_v145 (mulf : (⟨S50000x128, .f32⟩ : BufTy).Contents (Elt F) → (⟨S50000x128, .f32⟩ : BufTy).Contents (Elt F) → (⟨S50000x128, .f32⟩ : BufTy).Contents (Elt F)),
    unary main_v123 main_v146 (broadcastInDim S1x128 ![1] bcast_S128_S1x128_1 : (⟨S128, .f32⟩ : BufTy).Contents (Elt F) → (⟨S1x128, .f32⟩ : BufTy).Contents (Elt F)),
    unary main_v146 main_v147 (broadcastInDim S50000x128 ![0, 1] bcast_S1x128_S50000x128_0_1 : (⟨S1x128, .f32⟩ : BufTy).Contents (Elt F) → (⟨S50000x128, .f32⟩ : BufTy).Contents (Elt F)),
    binary main_v145 main_v147 main_v148 (addf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x00000000#32),
    unary main_cst_28 main_v149 (broadcastInDim S50000x128 ![] bcast_S_S50000x128 : (⟨S_, .f32⟩ : BufTy).Contents (Elt F) → (⟨S50000x128, .f32⟩ : BufTy).Contents (Elt F)),
    binary main_v148 main_v149 main_v150 (cmpf .ogt : (⟨S50000x128, .f32⟩ : BufTy).Contents (Elt F) → (⟨S50000x128, .f32⟩ : BufTy).Contents (Elt F) → (⟨S50000x128, .i1⟩ : BufTy).Contents (Elt F)),
    unary main_arg10 main_v151 (broadcastInDim S50000x128 ![] bcast_S_S50000x128 : (⟨S_, .f32⟩ : BufTy).Contents (Elt F) → (⟨S50000x128, .f32⟩ : BufTy).Contents (Elt F)),
    binary main_v151 main_v148 main_v152 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v150) (TRef.of (T := ⟨S50000x128, .f32⟩) main_v148) (TRef.of (T := ⟨S50000x128, .f32⟩) main_v152) (TRef.of (T := ⟨S50000x128, .f32⟩) main_v153) select,
    unary main_v42 main_v154 ((extractStridedSlice S50000x1 ![0, 0] · slices_S50000x4_S50000x1_0_0) : (⟨S50000x4, .f32⟩ : BufTy).Contents (Elt F) → (⟨S50000x1, .f32⟩ : BufTy).Contents (Elt F)),
    unary main_v154 main_v155 (broadcastInDim S50000x128 ![0, 1] bcast_S50000x1_S50000x128_0_1 : (⟨S50000x1, .f32⟩ : BufTy).Contents (Elt F) → (⟨S50000x128, .f32⟩ : BufTy).Contents (Elt F)),
    binary main_v155 main_v153 main_v156 (mulf : (⟨S50000x128, .f32⟩ : BufTy).Contents (Elt F) → (⟨S50000x128, .f32⟩ : BufTy).Contents (Elt F) → (⟨S50000x128, .f32⟩ : BufTy).Contents (Elt F)),
    binary main_v43 main_v156 main_v157 (addf : (⟨S50000x128, .f32⟩ : BufTy).Contents (Elt F) → (⟨S50000x128, .f32⟩ : BufTy).Contents (Elt F) → (⟨S50000x128, .f32⟩ : BufTy).Contents (Elt F)) ]

abbrev rc10 : List (HloOp τ sig (Elt F)) :=
  [ unary main_arg2 main_v158 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v158 main_v159 rfl shapeCasts_S1x128x128_S128x128 ]

abbrev rc11 : List (HloOp τ sig (Elt F)) :=
  [ binary main_arg0 main_v159 main_v160 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

abbrev rc12 : List (HloOp τ sig (Elt F)) :=
  [ nullary main_c_29 (constantI S_ 32 0#32),
    unary main_c_29 main_v161 (broadcastInDim S850000 ![] bcast_S_S850000 : (⟨S_, .i32⟩ : BufTy).Contents (Elt F) → (⟨S850000, .i32⟩ : BufTy).Contents (Elt F)),
    binary main_v5 main_v161 main_v162 (cmpi .slt : (⟨S850000, .i32⟩ : BufTy).Contents (Elt F) → (⟨S850000, .i32⟩ : BufTy).Contents (Elt F) → (⟨S850000, .i1⟩ : BufTy).Contents (Elt F)),
    nullary main_c_30 (constantI S_ 32 50000#32),
    unary main_c_30 main_v163 (broadcastInDim S850000 ![] bcast_S_S850000 : (⟨S_, .i32⟩ : BufTy).Contents (Elt F) → (⟨S850000, .i32⟩ : BufTy).Contents (Elt F)),
    binary main_v5 main_v163 main_v164 (addi : (⟨S850000, .i32⟩ : BufTy).Contents (Elt F) → (⟨S850000, .i32⟩ : BufTy).Contents (Elt F) → (⟨S850000, .i32⟩ : BufTy).Contents (Elt F)),
    ternary main_v162 main_v164 main_v5 main_v165 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v165 main_v166 (broadcastInDim S850000x1 ![0] bcast_S850000_S850000x1_0 : (⟨S850000, .i32⟩ : BufTy).Contents (Elt F) → (⟨S850000x1, .i32⟩ : BufTy).Contents (Elt F)),
    binary main_v160 main_v166 main_v167 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v168 (broadcastInDim S850000x1 ![0] bcast_S850000_S850000x1_0 : (⟨S850000, .f32⟩ : BufTy).Contents (Elt F) → (⟨S850000x1, .f32⟩ : BufTy).Contents (Elt F)),
    unary main_v168 main_v169 (broadcastInDim S850000x128 ![0, 1] bcast_S850000x1_S850000x128_0_1 : (⟨S850000x1, .f32⟩ : BufTy).Contents (Elt F) → (⟨S850000x128, .f32⟩ : BufTy).Contents (Elt F)),
    binary main_v167 main_v169 main_v170 (mulf : (⟨S850000x128, .f32⟩ : BufTy).Contents (Elt F) → (⟨S850000x128, .f32⟩ : BufTy).Contents (Elt F) → (⟨S850000x128, .f32⟩ : BufTy).Contents (Elt F)),
    nullary main_cst_31 (constant S_ .f32 0x00000000#32),
    unary main_cst_31 main_v171 (broadcastInDim S50000x128 ![] bcast_S_S50000x128 : (⟨S_, .f32⟩ : BufTy).Contents (Elt F) → (⟨S50000x128, .f32⟩ : BufTy).Contents (Elt F)),
    unary main_v6 main_v172 (broadcastInDim S850000x1 ![0] bcast_S850000_S850000x1_0 : (⟨S850000, .i32⟩ : BufTy).Contents (Elt F) → (⟨S850000x1, .i32⟩ : BufTy).Contents (Elt F)),
    ternary main_v171 main_v172 main_v170 main_v173 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v174 ((extractStridedSlice S1x128 ![1, 0] · slices_S4x128_S1x128_1_0) : (⟨S4x128, .f32⟩ : BufTy).Contents (Elt F) → (⟨S1x128, .f32⟩ : BufTy).Contents (Elt F)),
    reshape main_v174 main_v175 rfl shapeCasts_S1x128_S128,
    unary main_v175 main_v176 (broadcastInDim S1x128 ![1] bcast_S128_S1x128_1 : (⟨S128, .f32⟩ : BufTy).Contents (Elt F) → (⟨S1x128, .f32⟩ : BufTy).Contents (Elt F)),
    unary main_v176 main_v177 (broadcastInDim S50000x128 ![0, 1] bcast_S1x128_S50000x128_0_1 : (⟨S1x128, .f32⟩ : BufTy).Contents (Elt F) → (⟨S50000x128, .f32⟩ : BufTy).Contents (Elt F)),
    binary main_v173 main_v177 main_v178 (addf : (⟨S50000x128, .f32⟩ : BufTy).Contents (Elt F) → (⟨S50000x128, .f32⟩ : BufTy).Contents (Elt F) → (⟨S50000x128, .f32⟩ : BufTy).Contents (Elt F)),
    unary main_arg6 main_v179 ((extractStridedSlice S1x128 ![1, 0] · slices_S4x128_S1x128_1_0) : (⟨S4x128, .f32⟩ : BufTy).Contents (Elt F) → (⟨S1x128, .f32⟩ : BufTy).Contents (Elt F)),
    reshape main_v179 main_v180 rfl shapeCasts_S1x128_S128,
    unary main_arg7 main_v181 ((extractStridedSlice S1x128 ![1, 0] · slices_S4x128_S1x128_1_0) : (⟨S4x128, .f32⟩ : BufTy).Contents (Elt F) → (⟨S1x128, .f32⟩ : BufTy).Contents (Elt F)),
    reshape main_v181 main_v182 rfl shapeCasts_S1x128_S128,
    nullary main_cst_32 (constant S_ .f32 0x00000000#32),
    binary main_v178 main_cst_32 main_v183 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_33 (constant S_ .f32 0x47435000#32),
    unary main_cst_33 main_v184 (broadcastInDim S128 ![] bcast_S_S128 : (⟨S_, .f32⟩ : BufTy).Contents (Elt F) → (⟨S128, .f32⟩ : BufTy).Contents (Elt F)),
    binary main_v183 main_v184 main_v185 (Host.divf : (⟨S128, .f32⟩ : BufTy).Contents (Elt F) → (⟨S128, .f32⟩ : BufTy).Contents (Elt F) → (⟨S128, .f32⟩ : BufTy).Contents (Elt F)),
    unary main_v185 main_v186 (broadcastInDim S1x128 ![1] bcast_S128_S1x128_1 : (⟨S128, .f32⟩ : BufTy).Contents (Elt F) → (⟨S1x128, .f32⟩ : BufTy).Contents (Elt F)),
    unary main_v186 main_v187 (broadcastInDim S50000x128 ![0, 1] bcast_S1x128_S50000x128_0_1 : (⟨S1x128, .f32⟩ : BufTy).Contents (Elt F) → (⟨S50000x128, .f32⟩ : BufTy).Contents (Elt F)),
    binary main_v178 main_v187 main_v188 (subf : (⟨S50000x128, .f32⟩ : BufTy).Contents (Elt F) → (⟨S50000x128, .f32⟩ : BufTy).Contents (Elt F) → (⟨S50000x128, .f32⟩ : BufTy).Contents (Elt F)),
    binary main_v188 main_v188 main_v189 (mulf : (⟨S50000x128, .f32⟩ : BufTy).Contents (Elt F) → (⟨S50000x128, .f32⟩ : BufTy).Contents (Elt F) → (⟨S50000x128, .f32⟩ : BufTy).Contents (Elt F)),
    nullary main_cst_34 (constant S_ .f32 0x00000000#32),
    binary main_v189 main_cst_34 main_v190 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_35 (constant S_ .f32 0x47435000#32),
    unary main_cst_35 main_v191 (broadcastInDim S128 ![] bcast_S_S128 : (⟨S_, .f32⟩ : BufTy).Contents (Elt F) → (⟨S128, .f32⟩ : BufTy).Contents (Elt F)),
    binary main_v190 main_v191 main_v192 (Host.divf : (⟨S128, .f32⟩ : BufTy).Contents (Elt F) → (⟨S128, .f32⟩ : BufTy).Contents (Elt F) → (⟨S128, .f32⟩ : BufTy).Contents (Elt F)) ]

abbrev rc13 : List (HloOp τ sig (Elt F)) :=
  [ unary main_v185 main_v193 (broadcastInDim S1x128 ![1] bcast_S128_S1x128_1 : (⟨S128, .f32⟩ : BufTy).Contents (Elt F) → (⟨S1x128, .f32⟩ : BufTy).Contents (Elt F)),
    unary main_v193 main_v194 (broadcastInDim S50000x128 ![0, 1] bcast_S1x128_S50000x128_0_1 : (⟨S1x128, .f32⟩ : BufTy).Contents (Elt F) → (⟨S50000x128, .f32⟩ : BufTy).Contents (Elt F)),
    binary main_v178 main_v194 main_v195 (subf : (⟨S50000x128, .f32⟩ : BufTy).Contents (Elt F) → (⟨S50000x128, .f32⟩ : BufTy).Contents (Elt F) → (⟨S50000x128, .f32⟩ : BufTy).Contents (Elt F)),
    nullary main_cst_36 (constant S_ .f32 0x3727C5AC#32),
    unary main_cst_36 main_v196 (broadcastInDim S128 ![] bcast_S_S128 : (⟨S_, .f32⟩ : BufTy).Contents (Elt F) → (⟨S128, .f32⟩ : BufTy).Contents (Elt F)),
    binary main_v192 main_v196 main_v197 (addf : (⟨S128, .f32⟩ : BufTy).Contents (Elt F) → (⟨S128, .f32⟩ : BufTy).Contents (Elt F) → (⟨S128, .f32⟩ : BufTy).Contents (Elt F)),
    unary main_v197 main_v198 (Host.rsqrt : (⟨S128, .f32⟩ : BufTy).Contents (Elt F) → (⟨S128, .f32⟩ : BufTy).Contents (Elt F)),
    unary main_v198 main_v199 (broadcastInDim S1x128 ![1] bcast_S128_S1x128_1 : (⟨S128, .f32⟩ : BufTy).Contents (Elt F) → (⟨S1x128, .f32⟩ : BufTy).Contents (Elt F)),
    unary main_v199 main_v200 (broadcastInDim S50000x128 ![0, 1] bcast_S1x128_S50000x128_0_1 : (⟨S1x128, .f32⟩ : BufTy).Contents (Elt F) → (⟨S50000x128, .f32⟩ : BufTy).Contents (Elt F)),
    binary main_v195 main_v200 main_v201 (mulf : (⟨S50000x128, .f32⟩ : BufTy).Contents (Elt F) → (⟨S50000x128, .f32⟩ : BufTy).Contents (Elt F) → (⟨S50000x128, .f32⟩ : BufTy).Contents (Elt F)),
    unary main_v180 main_v202 (broadcastInDim S1x128 ![1] bcast_S128_S1x128_1 : (⟨S128, .f32⟩ : BufTy).Contents (Elt F) → (⟨S1x128, .f32⟩ : BufTy).Contents (Elt F)),
    unary main_v202 main_v203 (broadcastInDim S50000x128 ![0, 1] bcast_S1x128_S50000x128_0_1 : (⟨S1x128, .f32⟩ : BufTy).Contents (Elt F) → (⟨S50000x128, .f32⟩ : BufTy).Contents (Elt F)),
    binary main_v201 main_v203 main_v204 (mulf : (⟨S50000x128, .f32⟩ : BufTy).Contents (Elt F) → (⟨S50000x128, .f32⟩ : BufTy).Contents (Elt F) → (⟨S50000x128, .f32⟩ : BufTy).Contents (Elt F)),
    unary main_v182 main_v205 (broadcastInDim S1x128 ![1] bcast_S128_S1x128_1 : (⟨S128, .f32⟩ : BufTy).Contents (Elt F) → (⟨S1x128, .f32⟩ : BufTy).Contents (Elt F)),
    unary main_v205 main_v206 (broadcastInDim S50000x128 ![0, 1] bcast_S1x128_S50000x128_0_1 : (⟨S1x128, .f32⟩ : BufTy).Contents (Elt F) → (⟨S50000x128, .f32⟩ : BufTy).Contents (Elt F)),
    binary main_v204 main_v206 main_v207 (addf : (⟨S50000x128, .f32⟩ : BufTy).Contents (Elt F) → (⟨S50000x128, .f32⟩ : BufTy).Contents (Elt F) → (⟨S50000x128, .f32⟩ : BufTy).Contents (Elt F)),
    nullary main_cst_37 (constant S_ .f32 0x00000000#32),
    unary main_cst_37 main_v208 (broadcastInDim S50000x128 ![] bcast_S_S50000x128 : (⟨S_, .f32⟩ : BufTy).Contents (Elt F) → (⟨S50000x128, .f32⟩ : BufTy).Contents (Elt F)),
    binary main_v207 main_v208 main_v209 (cmpf .ogt : (⟨S50000x128, .f32⟩ : BufTy).Contents (Elt F) → (⟨S50000x128, .f32⟩ : BufTy).Contents (Elt F) → (⟨S50000x128, .i1⟩ : BufTy).Contents (Elt F)),
    unary main_arg10 main_v210 (broadcastInDim S50000x128 ![] bcast_S_S50000x128 : (⟨S_, .f32⟩ : BufTy).Contents (Elt F) → (⟨S50000x128, .f32⟩ : BufTy).Contents (Elt F)),
    binary main_v210 main_v207 main_v211 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v209) (TRef.of (T := ⟨S50000x128, .f32⟩) main_v207) (TRef.of (T := ⟨S50000x128, .f32⟩) main_v211) (TRef.of (T := ⟨S50000x128, .f32⟩) main_v212) select ]

abbrev rc14 : List (HloOp τ sig (Elt F)) :=
  [ unary main_arg4 main_v213 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v213 main_v214 rfl shapeCasts_S1x128x128_S128x128 ]

abbrev rc15 : List (HloOp τ sig (Elt F)) :=
  [ binary main_v212 main_v214 main_v215 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

abbrev rc16 : List (HloOp τ sig (Elt F)) :=
  [ nullary main_c_38 (constantI S_ 32 0#32),
    unary main_c_38 main_v216 (broadcastInDim S850000 ![] bcast_S_S850000 : (⟨S_, .i32⟩ : BufTy).Contents (Elt F) → (⟨S850000, .i32⟩ : BufTy).Contents (Elt F)),
    binary main_v5 main_v216 main_v217 (cmpi .slt : (⟨S850000, .i32⟩ : BufTy).Contents (Elt F) → (⟨S850000, .i32⟩ : BufTy).Contents (Elt F) → (⟨S850000, .i1⟩ : BufTy).Contents (Elt F)),
    nullary main_c_39 (constantI S_ 32 50000#32),
    unary main_c_39 main_v218 (broadcastInDim S850000 ![] bcast_S_S850000 : (⟨S_, .i32⟩ : BufTy).Contents (Elt F) → (⟨S850000, .i32⟩ : BufTy).Contents (Elt F)),
    binary main_v5 main_v218 main_v219 (addi : (⟨S850000, .i32⟩ : BufTy).Contents (Elt F) → (⟨S850000, .i32⟩ : BufTy).Contents (Elt F) → (⟨S850000, .i32⟩ : BufTy).Contents (Elt F)),
    ternary main_v217 main_v219 main_v5 main_v220 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v220 main_v221 (broadcastInDim S850000x1 ![0] bcast_S850000_S850000x1_0 : (⟨S850000, .i32⟩ : BufTy).Contents (Elt F) → (⟨S850000x1, .i32⟩ : BufTy).Contents (Elt F)),
    binary main_v215 main_v221 main_v222 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v223 (broadcastInDim S850000x1 ![0] bcast_S850000_S850000x1_0 : (⟨S850000, .f32⟩ : BufTy).Contents (Elt F) → (⟨S850000x1, .f32⟩ : BufTy).Contents (Elt F)),
    unary main_v223 main_v224 (broadcastInDim S850000x128 ![0, 1] bcast_S850000x1_S850000x128_0_1 : (⟨S850000x1, .f32⟩ : BufTy).Contents (Elt F) → (⟨S850000x128, .f32⟩ : BufTy).Contents (Elt F)),
    binary main_v222 main_v224 main_v225 (mulf : (⟨S850000x128, .f32⟩ : BufTy).Contents (Elt F) → (⟨S850000x128, .f32⟩ : BufTy).Contents (Elt F) → (⟨S850000x128, .f32⟩ : BufTy).Contents (Elt F)),
    nullary main_cst_40 (constant S_ .f32 0x00000000#32),
    unary main_cst_40 main_v226 (broadcastInDim S50000x128 ![] bcast_S_S50000x128 : (⟨S_, .f32⟩ : BufTy).Contents (Elt F) → (⟨S50000x128, .f32⟩ : BufTy).Contents (Elt F)),
    unary main_v6 main_v227 (broadcastInDim S850000x1 ![0] bcast_S850000_S850000x1_0 : (⟨S850000, .i32⟩ : BufTy).Contents (Elt F) → (⟨S850000x1, .i32⟩ : BufTy).Contents (Elt F)),
    ternary main_v226 main_v227 main_v225 main_v228 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v229 ((extractStridedSlice S1x128 ![1, 0] · slices_S4x128_S1x128_1_0) : (⟨S4x128, .f32⟩ : BufTy).Contents (Elt F) → (⟨S1x128, .f32⟩ : BufTy).Contents (Elt F)),
    reshape main_v229 main_v230 rfl shapeCasts_S1x128_S128,
    unary main_v230 main_v231 (broadcastInDim S1x128 ![1] bcast_S128_S1x128_1 : (⟨S128, .f32⟩ : BufTy).Contents (Elt F) → (⟨S1x128, .f32⟩ : BufTy).Contents (Elt F)),
    unary main_v231 main_v232 (broadcastInDim S50000x128 ![0, 1] bcast_S1x128_S50000x128_0_1 : (⟨S1x128, .f32⟩ : BufTy).Contents (Elt F) → (⟨S50000x128, .f32⟩ : BufTy).Contents (Elt F)),
    binary main_v228 main_v232 main_v233 (addf : (⟨S50000x128, .f32⟩ : BufTy).Contents (Elt F) → (⟨S50000x128, .f32⟩ : BufTy).Contents (Elt F) → (⟨S50000x128, .f32⟩ : BufTy).Contents (Elt F)),
    unary main_arg8 main_v234 ((extractStridedSlice S1x128 ![1, 0] · slices_S4x128_S1x128_1_0) : (⟨S4x128, .f32⟩ : BufTy).Contents (Elt F) → (⟨S1x128, .f32⟩ : BufTy).Contents (Elt F)),
    reshape main_v234 main_v235 rfl shapeCasts_S1x128_S128,
    unary main_arg9 main_v236 ((extractStridedSlice S1x128 ![1, 0] · slices_S4x128_S1x128_1_0) : (⟨S4x128, .f32⟩ : BufTy).Contents (Elt F) → (⟨S1x128, .f32⟩ : BufTy).Contents (Elt F)),
    reshape main_v236 main_v237 rfl shapeCasts_S1x128_S128,
    nullary main_cst_41 (constant S_ .f32 0x00000000#32),
    binary main_v233 main_cst_41 main_v238 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_42 (constant S_ .f32 0x47435000#32),
    unary main_cst_42 main_v239 (broadcastInDim S128 ![] bcast_S_S128 : (⟨S_, .f32⟩ : BufTy).Contents (Elt F) → (⟨S128, .f32⟩ : BufTy).Contents (Elt F)),
    binary main_v238 main_v239 main_v240 (Host.divf : (⟨S128, .f32⟩ : BufTy).Contents (Elt F) → (⟨S128, .f32⟩ : BufTy).Contents (Elt F) → (⟨S128, .f32⟩ : BufTy).Contents (Elt F)),
    unary main_v240 main_v241 (broadcastInDim S1x128 ![1] bcast_S128_S1x128_1 : (⟨S128, .f32⟩ : BufTy).Contents (Elt F) → (⟨S1x128, .f32⟩ : BufTy).Contents (Elt F)),
    unary main_v241 main_v242 (broadcastInDim S50000x128 ![0, 1] bcast_S1x128_S50000x128_0_1 : (⟨S1x128, .f32⟩ : BufTy).Contents (Elt F) → (⟨S50000x128, .f32⟩ : BufTy).Contents (Elt F)),
    binary main_v233 main_v242 main_v243 (subf : (⟨S50000x128, .f32⟩ : BufTy).Contents (Elt F) → (⟨S50000x128, .f32⟩ : BufTy).Contents (Elt F) → (⟨S50000x128, .f32⟩ : BufTy).Contents (Elt F)),
    binary main_v243 main_v243 main_v244 (mulf : (⟨S50000x128, .f32⟩ : BufTy).Contents (Elt F) → (⟨S50000x128, .f32⟩ : BufTy).Contents (Elt F) → (⟨S50000x128, .f32⟩ : BufTy).Contents (Elt F)),
    nullary main_cst_43 (constant S_ .f32 0x00000000#32),
    binary main_v244 main_cst_43 main_v245 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_44 (constant S_ .f32 0x47435000#32),
    unary main_cst_44 main_v246 (broadcastInDim S128 ![] bcast_S_S128 : (⟨S_, .f32⟩ : BufTy).Contents (Elt F) → (⟨S128, .f32⟩ : BufTy).Contents (Elt F)),
    binary main_v245 main_v246 main_v247 (Host.divf : (⟨S128, .f32⟩ : BufTy).Contents (Elt F) → (⟨S128, .f32⟩ : BufTy).Contents (Elt F) → (⟨S128, .f32⟩ : BufTy).Contents (Elt F)) ]

abbrev rc17 : List (HloOp τ sig (Elt F)) :=
  [ unary main_v240 main_v248 (broadcastInDim S1x128 ![1] bcast_S128_S1x128_1 : (⟨S128, .f32⟩ : BufTy).Contents (Elt F) → (⟨S1x128, .f32⟩ : BufTy).Contents (Elt F)),
    unary main_v248 main_v249 (broadcastInDim S50000x128 ![0, 1] bcast_S1x128_S50000x128_0_1 : (⟨S1x128, .f32⟩ : BufTy).Contents (Elt F) → (⟨S50000x128, .f32⟩ : BufTy).Contents (Elt F)),
    binary main_v233 main_v249 main_v250 (subf : (⟨S50000x128, .f32⟩ : BufTy).Contents (Elt F) → (⟨S50000x128, .f32⟩ : BufTy).Contents (Elt F) → (⟨S50000x128, .f32⟩ : BufTy).Contents (Elt F)),
    nullary main_cst_45 (constant S_ .f32 0x3727C5AC#32),
    unary main_cst_45 main_v251 (broadcastInDim S128 ![] bcast_S_S128 : (⟨S_, .f32⟩ : BufTy).Contents (Elt F) → (⟨S128, .f32⟩ : BufTy).Contents (Elt F)),
    binary main_v247 main_v251 main_v252 (addf : (⟨S128, .f32⟩ : BufTy).Contents (Elt F) → (⟨S128, .f32⟩ : BufTy).Contents (Elt F) → (⟨S128, .f32⟩ : BufTy).Contents (Elt F)),
    unary main_v252 main_v253 (Host.rsqrt : (⟨S128, .f32⟩ : BufTy).Contents (Elt F) → (⟨S128, .f32⟩ : BufTy).Contents (Elt F)),
    unary main_v253 main_v254 (broadcastInDim S1x128 ![1] bcast_S128_S1x128_1 : (⟨S128, .f32⟩ : BufTy).Contents (Elt F) → (⟨S1x128, .f32⟩ : BufTy).Contents (Elt F)),
    unary main_v254 main_v255 (broadcastInDim S50000x128 ![0, 1] bcast_S1x128_S50000x128_0_1 : (⟨S1x128, .f32⟩ : BufTy).Contents (Elt F) → (⟨S50000x128, .f32⟩ : BufTy).Contents (Elt F)),
    binary main_v250 main_v255 main_v256 (mulf : (⟨S50000x128, .f32⟩ : BufTy).Contents (Elt F) → (⟨S50000x128, .f32⟩ : BufTy).Contents (Elt F) → (⟨S50000x128, .f32⟩ : BufTy).Contents (Elt F)),
    unary main_v235 main_v257 (broadcastInDim S1x128 ![1] bcast_S128_S1x128_1 : (⟨S128, .f32⟩ : BufTy).Contents (Elt F) → (⟨S1x128, .f32⟩ : BufTy).Contents (Elt F)),
    unary main_v257 main_v258 (broadcastInDim S50000x128 ![0, 1] bcast_S1x128_S50000x128_0_1 : (⟨S1x128, .f32⟩ : BufTy).Contents (Elt F) → (⟨S50000x128, .f32⟩ : BufTy).Contents (Elt F)),
    binary main_v256 main_v258 main_v259 (mulf : (⟨S50000x128, .f32⟩ : BufTy).Contents (Elt F) → (⟨S50000x128, .f32⟩ : BufTy).Contents (Elt F) → (⟨S50000x128, .f32⟩ : BufTy).Contents (Elt F)),
    unary main_v237 main_v260 (broadcastInDim S1x128 ![1] bcast_S128_S1x128_1 : (⟨S128, .f32⟩ : BufTy).Contents (Elt F) → (⟨S1x128, .f32⟩ : BufTy).Contents (Elt F)),
    unary main_v260 main_v261 (broadcastInDim S50000x128 ![0, 1] bcast_S1x128_S50000x128_0_1 : (⟨S1x128, .f32⟩ : BufTy).Contents (Elt F) → (⟨S50000x128, .f32⟩ : BufTy).Contents (Elt F)),
    binary main_v259 main_v261 main_v262 (addf : (⟨S50000x128, .f32⟩ : BufTy).Contents (Elt F) → (⟨S50000x128, .f32⟩ : BufTy).Contents (Elt F) → (⟨S50000x128, .f32⟩ : BufTy).Contents (Elt F)),
    nullary main_cst_46 (constant S_ .f32 0x00000000#32),
    unary main_cst_46 main_v263 (broadcastInDim S50000x128 ![] bcast_S_S50000x128 : (⟨S_, .f32⟩ : BufTy).Contents (Elt F) → (⟨S50000x128, .f32⟩ : BufTy).Contents (Elt F)),
    binary main_v262 main_v263 main_v264 (cmpf .ogt : (⟨S50000x128, .f32⟩ : BufTy).Contents (Elt F) → (⟨S50000x128, .f32⟩ : BufTy).Contents (Elt F) → (⟨S50000x128, .i1⟩ : BufTy).Contents (Elt F)),
    unary main_arg10 main_v265 (broadcastInDim S50000x128 ![] bcast_S_S50000x128 : (⟨S_, .f32⟩ : BufTy).Contents (Elt F) → (⟨S50000x128, .f32⟩ : BufTy).Contents (Elt F)),
    binary main_v265 main_v262 main_v266 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v264) (TRef.of (T := ⟨S50000x128, .f32⟩) main_v262) (TRef.of (T := ⟨S50000x128, .f32⟩) main_v266) (TRef.of (T := ⟨S50000x128, .f32⟩) main_v267) select,
    unary main_v42 main_v268 ((extractStridedSlice S50000x1 ![0, 1] · slices_S50000x4_S50000x1_0_1) : (⟨S50000x4, .f32⟩ : BufTy).Contents (Elt F) → (⟨S50000x1, .f32⟩ : BufTy).Contents (Elt F)),
    unary main_v268 main_v269 (broadcastInDim S50000x128 ![0, 1] bcast_S50000x1_S50000x128_0_1 : (⟨S50000x1, .f32⟩ : BufTy).Contents (Elt F) → (⟨S50000x128, .f32⟩ : BufTy).Contents (Elt F)),
    binary main_v269 main_v267 main_v270 (mulf : (⟨S50000x128, .f32⟩ : BufTy).Contents (Elt F) → (⟨S50000x128, .f32⟩ : BufTy).Contents (Elt F) → (⟨S50000x128, .f32⟩ : BufTy).Contents (Elt F)),
    binary main_v157 main_v270 main_v271 (addf : (⟨S50000x128, .f32⟩ : BufTy).Contents (Elt F) → (⟨S50000x128, .f32⟩ : BufTy).Contents (Elt F) → (⟨S50000x128, .f32⟩ : BufTy).Contents (Elt F)) ]

abbrev rc18 : List (HloOp τ sig (Elt F)) :=
  [ unary main_arg2 main_v272 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v272 main_v273 rfl shapeCasts_S1x128x128_S128x128 ]

abbrev rc19 : List (HloOp τ sig (Elt F)) :=
  [ binary main_arg0 main_v273 main_v274 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

abbrev rc20 : List (HloOp τ sig (Elt F)) :=
  [ nullary main_c_47 (constantI S_ 32 0#32),
    unary main_c_47 main_v275 (broadcastInDim S850000 ![] bcast_S_S850000 : (⟨S_, .i32⟩ : BufTy).Contents (Elt F) → (⟨S850000, .i32⟩ : BufTy).Contents (Elt F)),
    binary main_v5 main_v275 main_v276 (cmpi .slt : (⟨S850000, .i32⟩ : BufTy).Contents (Elt F) → (⟨S850000, .i32⟩ : BufTy).Contents (Elt F) → (⟨S850000, .i1⟩ : BufTy).Contents (Elt F)),
    nullary main_c_48 (constantI S_ 32 50000#32),
    unary main_c_48 main_v277 (broadcastInDim S850000 ![] bcast_S_S850000 : (⟨S_, .i32⟩ : BufTy).Contents (Elt F) → (⟨S850000, .i32⟩ : BufTy).Contents (Elt F)),
    binary main_v5 main_v277 main_v278 (addi : (⟨S850000, .i32⟩ : BufTy).Contents (Elt F) → (⟨S850000, .i32⟩ : BufTy).Contents (Elt F) → (⟨S850000, .i32⟩ : BufTy).Contents (Elt F)),
    ternary main_v276 main_v278 main_v5 main_v279 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v279 main_v280 (broadcastInDim S850000x1 ![0] bcast_S850000_S850000x1_0 : (⟨S850000, .i32⟩ : BufTy).Contents (Elt F) → (⟨S850000x1, .i32⟩ : BufTy).Contents (Elt F)),
    binary main_v274 main_v280 main_v281 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v282 (broadcastInDim S850000x1 ![0] bcast_S850000_S850000x1_0 : (⟨S850000, .f32⟩ : BufTy).Contents (Elt F) → (⟨S850000x1, .f32⟩ : BufTy).Contents (Elt F)),
    unary main_v282 main_v283 (broadcastInDim S850000x128 ![0, 1] bcast_S850000x1_S850000x128_0_1 : (⟨S850000x1, .f32⟩ : BufTy).Contents (Elt F) → (⟨S850000x128, .f32⟩ : BufTy).Contents (Elt F)),
    binary main_v281 main_v283 main_v284 (mulf : (⟨S850000x128, .f32⟩ : BufTy).Contents (Elt F) → (⟨S850000x128, .f32⟩ : BufTy).Contents (Elt F) → (⟨S850000x128, .f32⟩ : BufTy).Contents (Elt F)),
    nullary main_cst_49 (constant S_ .f32 0x00000000#32),
    unary main_cst_49 main_v285 (broadcastInDim S50000x128 ![] bcast_S_S50000x128 : (⟨S_, .f32⟩ : BufTy).Contents (Elt F) → (⟨S50000x128, .f32⟩ : BufTy).Contents (Elt F)),
    unary main_v6 main_v286 (broadcastInDim S850000x1 ![0] bcast_S850000_S850000x1_0 : (⟨S850000, .i32⟩ : BufTy).Contents (Elt F) → (⟨S850000x1, .i32⟩ : BufTy).Contents (Elt F)),
    ternary main_v285 main_v286 main_v284 main_v287 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v288 ((extractStridedSlice S1x128 ![2, 0] · slices_S4x128_S1x128_2_0) : (⟨S4x128, .f32⟩ : BufTy).Contents (Elt F) → (⟨S1x128, .f32⟩ : BufTy).Contents (Elt F)),
    reshape main_v288 main_v289 rfl shapeCasts_S1x128_S128,
    unary main_v289 main_v290 (broadcastInDim S1x128 ![1] bcast_S128_S1x128_1 : (⟨S128, .f32⟩ : BufTy).Contents (Elt F) → (⟨S1x128, .f32⟩ : BufTy).Contents (Elt F)),
    unary main_v290 main_v291 (broadcastInDim S50000x128 ![0, 1] bcast_S1x128_S50000x128_0_1 : (⟨S1x128, .f32⟩ : BufTy).Contents (Elt F) → (⟨S50000x128, .f32⟩ : BufTy).Contents (Elt F)),
    binary main_v287 main_v291 main_v292 (addf : (⟨S50000x128, .f32⟩ : BufTy).Contents (Elt F) → (⟨S50000x128, .f32⟩ : BufTy).Contents (Elt F) → (⟨S50000x128, .f32⟩ : BufTy).Contents (Elt F)),
    unary main_arg6 main_v293 ((extractStridedSlice S1x128 ![2, 0] · slices_S4x128_S1x128_2_0) : (⟨S4x128, .f32⟩ : BufTy).Contents (Elt F) → (⟨S1x128, .f32⟩ : BufTy).Contents (Elt F)),
    reshape main_v293 main_v294 rfl shapeCasts_S1x128_S128,
    unary main_arg7 main_v295 ((extractStridedSlice S1x128 ![2, 0] · slices_S4x128_S1x128_2_0) : (⟨S4x128, .f32⟩ : BufTy).Contents (Elt F) → (⟨S1x128, .f32⟩ : BufTy).Contents (Elt F)),
    reshape main_v295 main_v296 rfl shapeCasts_S1x128_S128,
    nullary main_cst_50 (constant S_ .f32 0x00000000#32),
    binary main_v292 main_cst_50 main_v297 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_51 (constant S_ .f32 0x47435000#32),
    unary main_cst_51 main_v298 (broadcastInDim S128 ![] bcast_S_S128 : (⟨S_, .f32⟩ : BufTy).Contents (Elt F) → (⟨S128, .f32⟩ : BufTy).Contents (Elt F)),
    binary main_v297 main_v298 main_v299 (Host.divf : (⟨S128, .f32⟩ : BufTy).Contents (Elt F) → (⟨S128, .f32⟩ : BufTy).Contents (Elt F) → (⟨S128, .f32⟩ : BufTy).Contents (Elt F)),
    unary main_v299 main_v300 (broadcastInDim S1x128 ![1] bcast_S128_S1x128_1 : (⟨S128, .f32⟩ : BufTy).Contents (Elt F) → (⟨S1x128, .f32⟩ : BufTy).Contents (Elt F)),
    unary main_v300 main_v301 (broadcastInDim S50000x128 ![0, 1] bcast_S1x128_S50000x128_0_1 : (⟨S1x128, .f32⟩ : BufTy).Contents (Elt F) → (⟨S50000x128, .f32⟩ : BufTy).Contents (Elt F)),
    binary main_v292 main_v301 main_v302 (subf : (⟨S50000x128, .f32⟩ : BufTy).Contents (Elt F) → (⟨S50000x128, .f32⟩ : BufTy).Contents (Elt F) → (⟨S50000x128, .f32⟩ : BufTy).Contents (Elt F)),
    binary main_v302 main_v302 main_v303 (mulf : (⟨S50000x128, .f32⟩ : BufTy).Contents (Elt F) → (⟨S50000x128, .f32⟩ : BufTy).Contents (Elt F) → (⟨S50000x128, .f32⟩ : BufTy).Contents (Elt F)),
    nullary main_cst_52 (constant S_ .f32 0x00000000#32),
    binary main_v303 main_cst_52 main_v304 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_53 (constant S_ .f32 0x47435000#32),
    unary main_cst_53 main_v305 (broadcastInDim S128 ![] bcast_S_S128 : (⟨S_, .f32⟩ : BufTy).Contents (Elt F) → (⟨S128, .f32⟩ : BufTy).Contents (Elt F)),
    binary main_v304 main_v305 main_v306 (Host.divf : (⟨S128, .f32⟩ : BufTy).Contents (Elt F) → (⟨S128, .f32⟩ : BufTy).Contents (Elt F) → (⟨S128, .f32⟩ : BufTy).Contents (Elt F)) ]

abbrev rc21 : List (HloOp τ sig (Elt F)) :=
  [ unary main_v299 main_v307 (broadcastInDim S1x128 ![1] bcast_S128_S1x128_1 : (⟨S128, .f32⟩ : BufTy).Contents (Elt F) → (⟨S1x128, .f32⟩ : BufTy).Contents (Elt F)),
    unary main_v307 main_v308 (broadcastInDim S50000x128 ![0, 1] bcast_S1x128_S50000x128_0_1 : (⟨S1x128, .f32⟩ : BufTy).Contents (Elt F) → (⟨S50000x128, .f32⟩ : BufTy).Contents (Elt F)),
    binary main_v292 main_v308 main_v309 (subf : (⟨S50000x128, .f32⟩ : BufTy).Contents (Elt F) → (⟨S50000x128, .f32⟩ : BufTy).Contents (Elt F) → (⟨S50000x128, .f32⟩ : BufTy).Contents (Elt F)),
    nullary main_cst_54 (constant S_ .f32 0x3727C5AC#32),
    unary main_cst_54 main_v310 (broadcastInDim S128 ![] bcast_S_S128 : (⟨S_, .f32⟩ : BufTy).Contents (Elt F) → (⟨S128, .f32⟩ : BufTy).Contents (Elt F)),
    binary main_v306 main_v310 main_v311 (addf : (⟨S128, .f32⟩ : BufTy).Contents (Elt F) → (⟨S128, .f32⟩ : BufTy).Contents (Elt F) → (⟨S128, .f32⟩ : BufTy).Contents (Elt F)),
    unary main_v311 main_v312 (Host.rsqrt : (⟨S128, .f32⟩ : BufTy).Contents (Elt F) → (⟨S128, .f32⟩ : BufTy).Contents (Elt F)),
    unary main_v312 main_v313 (broadcastInDim S1x128 ![1] bcast_S128_S1x128_1 : (⟨S128, .f32⟩ : BufTy).Contents (Elt F) → (⟨S1x128, .f32⟩ : BufTy).Contents (Elt F)),
    unary main_v313 main_v314 (broadcastInDim S50000x128 ![0, 1] bcast_S1x128_S50000x128_0_1 : (⟨S1x128, .f32⟩ : BufTy).Contents (Elt F) → (⟨S50000x128, .f32⟩ : BufTy).Contents (Elt F)),
    binary main_v309 main_v314 main_v315 (mulf : (⟨S50000x128, .f32⟩ : BufTy).Contents (Elt F) → (⟨S50000x128, .f32⟩ : BufTy).Contents (Elt F) → (⟨S50000x128, .f32⟩ : BufTy).Contents (Elt F)),
    unary main_v294 main_v316 (broadcastInDim S1x128 ![1] bcast_S128_S1x128_1 : (⟨S128, .f32⟩ : BufTy).Contents (Elt F) → (⟨S1x128, .f32⟩ : BufTy).Contents (Elt F)),
    unary main_v316 main_v317 (broadcastInDim S50000x128 ![0, 1] bcast_S1x128_S50000x128_0_1 : (⟨S1x128, .f32⟩ : BufTy).Contents (Elt F) → (⟨S50000x128, .f32⟩ : BufTy).Contents (Elt F)),
    binary main_v315 main_v317 main_v318 (mulf : (⟨S50000x128, .f32⟩ : BufTy).Contents (Elt F) → (⟨S50000x128, .f32⟩ : BufTy).Contents (Elt F) → (⟨S50000x128, .f32⟩ : BufTy).Contents (Elt F)),
    unary main_v296 main_v319 (broadcastInDim S1x128 ![1] bcast_S128_S1x128_1 : (⟨S128, .f32⟩ : BufTy).Contents (Elt F) → (⟨S1x128, .f32⟩ : BufTy).Contents (Elt F)),
    unary main_v319 main_v320 (broadcastInDim S50000x128 ![0, 1] bcast_S1x128_S50000x128_0_1 : (⟨S1x128, .f32⟩ : BufTy).Contents (Elt F) → (⟨S50000x128, .f32⟩ : BufTy).Contents (Elt F)),
    binary main_v318 main_v320 main_v321 (addf : (⟨S50000x128, .f32⟩ : BufTy).Contents (Elt F) → (⟨S50000x128, .f32⟩ : BufTy).Contents (Elt F) → (⟨S50000x128, .f32⟩ : BufTy).Contents (Elt F)),
    nullary main_cst_55 (constant S_ .f32 0x00000000#32),
    unary main_cst_55 main_v322 (broadcastInDim S50000x128 ![] bcast_S_S50000x128 : (⟨S_, .f32⟩ : BufTy).Contents (Elt F) → (⟨S50000x128, .f32⟩ : BufTy).Contents (Elt F)),
    binary main_v321 main_v322 main_v323 (cmpf .ogt : (⟨S50000x128, .f32⟩ : BufTy).Contents (Elt F) → (⟨S50000x128, .f32⟩ : BufTy).Contents (Elt F) → (⟨S50000x128, .i1⟩ : BufTy).Contents (Elt F)),
    unary main_arg10 main_v324 (broadcastInDim S50000x128 ![] bcast_S_S50000x128 : (⟨S_, .f32⟩ : BufTy).Contents (Elt F) → (⟨S50000x128, .f32⟩ : BufTy).Contents (Elt F)),
    binary main_v324 main_v321 main_v325 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v323) (TRef.of (T := ⟨S50000x128, .f32⟩) main_v321) (TRef.of (T := ⟨S50000x128, .f32⟩) main_v325) (TRef.of (T := ⟨S50000x128, .f32⟩) main_v326) select ]

abbrev rc22 : List (HloOp τ sig (Elt F)) :=
  [ unary main_arg4 main_v327 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v327 main_v328 rfl shapeCasts_S1x128x128_S128x128 ]

abbrev rc23 : List (HloOp τ sig (Elt F)) :=
  [ binary main_v326 main_v328 main_v329 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

abbrev rc24 : List (HloOp τ sig (Elt F)) :=
  [ nullary main_c_56 (constantI S_ 32 0#32),
    unary main_c_56 main_v330 (broadcastInDim S850000 ![] bcast_S_S850000 : (⟨S_, .i32⟩ : BufTy).Contents (Elt F) → (⟨S850000, .i32⟩ : BufTy).Contents (Elt F)),
    binary main_v5 main_v330 main_v331 (cmpi .slt : (⟨S850000, .i32⟩ : BufTy).Contents (Elt F) → (⟨S850000, .i32⟩ : BufTy).Contents (Elt F) → (⟨S850000, .i1⟩ : BufTy).Contents (Elt F)),
    nullary main_c_57 (constantI S_ 32 50000#32),
    unary main_c_57 main_v332 (broadcastInDim S850000 ![] bcast_S_S850000 : (⟨S_, .i32⟩ : BufTy).Contents (Elt F) → (⟨S850000, .i32⟩ : BufTy).Contents (Elt F)),
    binary main_v5 main_v332 main_v333 (addi : (⟨S850000, .i32⟩ : BufTy).Contents (Elt F) → (⟨S850000, .i32⟩ : BufTy).Contents (Elt F) → (⟨S850000, .i32⟩ : BufTy).Contents (Elt F)),
    ternary main_v331 main_v333 main_v5 main_v334 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v334 main_v335 (broadcastInDim S850000x1 ![0] bcast_S850000_S850000x1_0 : (⟨S850000, .i32⟩ : BufTy).Contents (Elt F) → (⟨S850000x1, .i32⟩ : BufTy).Contents (Elt F)),
    binary main_v329 main_v335 main_v336 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v337 (broadcastInDim S850000x1 ![0] bcast_S850000_S850000x1_0 : (⟨S850000, .f32⟩ : BufTy).Contents (Elt F) → (⟨S850000x1, .f32⟩ : BufTy).Contents (Elt F)),
    unary main_v337 main_v338 (broadcastInDim S850000x128 ![0, 1] bcast_S850000x1_S850000x128_0_1 : (⟨S850000x1, .f32⟩ : BufTy).Contents (Elt F) → (⟨S850000x128, .f32⟩ : BufTy).Contents (Elt F)),
    binary main_v336 main_v338 main_v339 (mulf : (⟨S850000x128, .f32⟩ : BufTy).Contents (Elt F) → (⟨S850000x128, .f32⟩ : BufTy).Contents (Elt F) → (⟨S850000x128, .f32⟩ : BufTy).Contents (Elt F)),
    nullary main_cst_58 (constant S_ .f32 0x00000000#32),
    unary main_cst_58 main_v340 (broadcastInDim S50000x128 ![] bcast_S_S50000x128 : (⟨S_, .f32⟩ : BufTy).Contents (Elt F) → (⟨S50000x128, .f32⟩ : BufTy).Contents (Elt F)),
    unary main_v6 main_v341 (broadcastInDim S850000x1 ![0] bcast_S850000_S850000x1_0 : (⟨S850000, .i32⟩ : BufTy).Contents (Elt F) → (⟨S850000x1, .i32⟩ : BufTy).Contents (Elt F)),
    ternary main_v340 main_v341 main_v339 main_v342 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v343 ((extractStridedSlice S1x128 ![2, 0] · slices_S4x128_S1x128_2_0) : (⟨S4x128, .f32⟩ : BufTy).Contents (Elt F) → (⟨S1x128, .f32⟩ : BufTy).Contents (Elt F)),
    reshape main_v343 main_v344 rfl shapeCasts_S1x128_S128,
    unary main_v344 main_v345 (broadcastInDim S1x128 ![1] bcast_S128_S1x128_1 : (⟨S128, .f32⟩ : BufTy).Contents (Elt F) → (⟨S1x128, .f32⟩ : BufTy).Contents (Elt F)),
    unary main_v345 main_v346 (broadcastInDim S50000x128 ![0, 1] bcast_S1x128_S50000x128_0_1 : (⟨S1x128, .f32⟩ : BufTy).Contents (Elt F) → (⟨S50000x128, .f32⟩ : BufTy).Contents (Elt F)),
    binary main_v342 main_v346 main_v347 (addf : (⟨S50000x128, .f32⟩ : BufTy).Contents (Elt F) → (⟨S50000x128, .f32⟩ : BufTy).Contents (Elt F) → (⟨S50000x128, .f32⟩ : BufTy).Contents (Elt F)),
    unary main_arg8 main_v348 ((extractStridedSlice S1x128 ![2, 0] · slices_S4x128_S1x128_2_0) : (⟨S4x128, .f32⟩ : BufTy).Contents (Elt F) → (⟨S1x128, .f32⟩ : BufTy).Contents (Elt F)),
    reshape main_v348 main_v349 rfl shapeCasts_S1x128_S128,
    unary main_arg9 main_v350 ((extractStridedSlice S1x128 ![2, 0] · slices_S4x128_S1x128_2_0) : (⟨S4x128, .f32⟩ : BufTy).Contents (Elt F) → (⟨S1x128, .f32⟩ : BufTy).Contents (Elt F)),
    reshape main_v350 main_v351 rfl shapeCasts_S1x128_S128,
    nullary main_cst_59 (constant S_ .f32 0x00000000#32),
    binary main_v347 main_cst_59 main_v352 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_60 (constant S_ .f32 0x47435000#32),
    unary main_cst_60 main_v353 (broadcastInDim S128 ![] bcast_S_S128 : (⟨S_, .f32⟩ : BufTy).Contents (Elt F) → (⟨S128, .f32⟩ : BufTy).Contents (Elt F)),
    binary main_v352 main_v353 main_v354 (Host.divf : (⟨S128, .f32⟩ : BufTy).Contents (Elt F) → (⟨S128, .f32⟩ : BufTy).Contents (Elt F) → (⟨S128, .f32⟩ : BufTy).Contents (Elt F)),
    unary main_v354 main_v355 (broadcastInDim S1x128 ![1] bcast_S128_S1x128_1 : (⟨S128, .f32⟩ : BufTy).Contents (Elt F) → (⟨S1x128, .f32⟩ : BufTy).Contents (Elt F)),
    unary main_v355 main_v356 (broadcastInDim S50000x128 ![0, 1] bcast_S1x128_S50000x128_0_1 : (⟨S1x128, .f32⟩ : BufTy).Contents (Elt F) → (⟨S50000x128, .f32⟩ : BufTy).Contents (Elt F)),
    binary main_v347 main_v356 main_v357 (subf : (⟨S50000x128, .f32⟩ : BufTy).Contents (Elt F) → (⟨S50000x128, .f32⟩ : BufTy).Contents (Elt F) → (⟨S50000x128, .f32⟩ : BufTy).Contents (Elt F)),
    binary main_v357 main_v357 main_v358 (mulf : (⟨S50000x128, .f32⟩ : BufTy).Contents (Elt F) → (⟨S50000x128, .f32⟩ : BufTy).Contents (Elt F) → (⟨S50000x128, .f32⟩ : BufTy).Contents (Elt F)),
    nullary main_cst_61 (constant S_ .f32 0x00000000#32),
    binary main_v358 main_cst_61 main_v359 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_62 (constant S_ .f32 0x47435000#32),
    unary main_cst_62 main_v360 (broadcastInDim S128 ![] bcast_S_S128 : (⟨S_, .f32⟩ : BufTy).Contents (Elt F) → (⟨S128, .f32⟩ : BufTy).Contents (Elt F)),
    binary main_v359 main_v360 main_v361 (Host.divf : (⟨S128, .f32⟩ : BufTy).Contents (Elt F) → (⟨S128, .f32⟩ : BufTy).Contents (Elt F) → (⟨S128, .f32⟩ : BufTy).Contents (Elt F)) ]

abbrev rc25 : List (HloOp τ sig (Elt F)) :=
  [ unary main_v354 main_v362 (broadcastInDim S1x128 ![1] bcast_S128_S1x128_1 : (⟨S128, .f32⟩ : BufTy).Contents (Elt F) → (⟨S1x128, .f32⟩ : BufTy).Contents (Elt F)),
    unary main_v362 main_v363 (broadcastInDim S50000x128 ![0, 1] bcast_S1x128_S50000x128_0_1 : (⟨S1x128, .f32⟩ : BufTy).Contents (Elt F) → (⟨S50000x128, .f32⟩ : BufTy).Contents (Elt F)),
    binary main_v347 main_v363 main_v364 (subf : (⟨S50000x128, .f32⟩ : BufTy).Contents (Elt F) → (⟨S50000x128, .f32⟩ : BufTy).Contents (Elt F) → (⟨S50000x128, .f32⟩ : BufTy).Contents (Elt F)),
    nullary main_cst_63 (constant S_ .f32 0x3727C5AC#32),
    unary main_cst_63 main_v365 (broadcastInDim S128 ![] bcast_S_S128 : (⟨S_, .f32⟩ : BufTy).Contents (Elt F) → (⟨S128, .f32⟩ : BufTy).Contents (Elt F)),
    binary main_v361 main_v365 main_v366 (addf : (⟨S128, .f32⟩ : BufTy).Contents (Elt F) → (⟨S128, .f32⟩ : BufTy).Contents (Elt F) → (⟨S128, .f32⟩ : BufTy).Contents (Elt F)),
    unary main_v366 main_v367 (Host.rsqrt : (⟨S128, .f32⟩ : BufTy).Contents (Elt F) → (⟨S128, .f32⟩ : BufTy).Contents (Elt F)),
    unary main_v367 main_v368 (broadcastInDim S1x128 ![1] bcast_S128_S1x128_1 : (⟨S128, .f32⟩ : BufTy).Contents (Elt F) → (⟨S1x128, .f32⟩ : BufTy).Contents (Elt F)),
    unary main_v368 main_v369 (broadcastInDim S50000x128 ![0, 1] bcast_S1x128_S50000x128_0_1 : (⟨S1x128, .f32⟩ : BufTy).Contents (Elt F) → (⟨S50000x128, .f32⟩ : BufTy).Contents (Elt F)),
    binary main_v364 main_v369 main_v370 (mulf : (⟨S50000x128, .f32⟩ : BufTy).Contents (Elt F) → (⟨S50000x128, .f32⟩ : BufTy).Contents (Elt F) → (⟨S50000x128, .f32⟩ : BufTy).Contents (Elt F)),
    unary main_v349 main_v371 (broadcastInDim S1x128 ![1] bcast_S128_S1x128_1 : (⟨S128, .f32⟩ : BufTy).Contents (Elt F) → (⟨S1x128, .f32⟩ : BufTy).Contents (Elt F)),
    unary main_v371 main_v372 (broadcastInDim S50000x128 ![0, 1] bcast_S1x128_S50000x128_0_1 : (⟨S1x128, .f32⟩ : BufTy).Contents (Elt F) → (⟨S50000x128, .f32⟩ : BufTy).Contents (Elt F)),
    binary main_v370 main_v372 main_v373 (mulf : (⟨S50000x128, .f32⟩ : BufTy).Contents (Elt F) → (⟨S50000x128, .f32⟩ : BufTy).Contents (Elt F) → (⟨S50000x128, .f32⟩ : BufTy).Contents (Elt F)),
    unary main_v351 main_v374 (broadcastInDim S1x128 ![1] bcast_S128_S1x128_1 : (⟨S128, .f32⟩ : BufTy).Contents (Elt F) → (⟨S1x128, .f32⟩ : BufTy).Contents (Elt F)),
    unary main_v374 main_v375 (broadcastInDim S50000x128 ![0, 1] bcast_S1x128_S50000x128_0_1 : (⟨S1x128, .f32⟩ : BufTy).Contents (Elt F) → (⟨S50000x128, .f32⟩ : BufTy).Contents (Elt F)),
    binary main_v373 main_v375 main_v376 (addf : (⟨S50000x128, .f32⟩ : BufTy).Contents (Elt F) → (⟨S50000x128, .f32⟩ : BufTy).Contents (Elt F) → (⟨S50000x128, .f32⟩ : BufTy).Contents (Elt F)),
    nullary main_cst_64 (constant S_ .f32 0x00000000#32),
    unary main_cst_64 main_v377 (broadcastInDim S50000x128 ![] bcast_S_S50000x128 : (⟨S_, .f32⟩ : BufTy).Contents (Elt F) → (⟨S50000x128, .f32⟩ : BufTy).Contents (Elt F)),
    binary main_v376 main_v377 main_v378 (cmpf .ogt : (⟨S50000x128, .f32⟩ : BufTy).Contents (Elt F) → (⟨S50000x128, .f32⟩ : BufTy).Contents (Elt F) → (⟨S50000x128, .i1⟩ : BufTy).Contents (Elt F)),
    unary main_arg10 main_v379 (broadcastInDim S50000x128 ![] bcast_S_S50000x128 : (⟨S_, .f32⟩ : BufTy).Contents (Elt F) → (⟨S50000x128, .f32⟩ : BufTy).Contents (Elt F)),
    binary main_v379 main_v376 main_v380 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v378) (TRef.of (T := ⟨S50000x128, .f32⟩) main_v376) (TRef.of (T := ⟨S50000x128, .f32⟩) main_v380) (TRef.of (T := ⟨S50000x128, .f32⟩) main_v381) select,
    unary main_v42 main_v382 ((extractStridedSlice S50000x1 ![0, 2] · slices_S50000x4_S50000x1_0_2) : (⟨S50000x4, .f32⟩ : BufTy).Contents (Elt F) → (⟨S50000x1, .f32⟩ : BufTy).Contents (Elt F)),
    unary main_v382 main_v383 (broadcastInDim S50000x128 ![0, 1] bcast_S50000x1_S50000x128_0_1 : (⟨S50000x1, .f32⟩ : BufTy).Contents (Elt F) → (⟨S50000x128, .f32⟩ : BufTy).Contents (Elt F)),
    binary main_v383 main_v381 main_v384 (mulf : (⟨S50000x128, .f32⟩ : BufTy).Contents (Elt F) → (⟨S50000x128, .f32⟩ : BufTy).Contents (Elt F) → (⟨S50000x128, .f32⟩ : BufTy).Contents (Elt F)),
    binary main_v271 main_v384 main_v385 (addf : (⟨S50000x128, .f32⟩ : BufTy).Contents (Elt F) → (⟨S50000x128, .f32⟩ : BufTy).Contents (Elt F) → (⟨S50000x128, .f32⟩ : BufTy).Contents (Elt F)) ]

abbrev rc26 : List (HloOp τ sig (Elt F)) :=
  [ unary main_arg2 main_v386 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v386 main_v387 rfl shapeCasts_S1x128x128_S128x128 ]

abbrev rc27 : List (HloOp τ sig (Elt F)) :=
  [ binary main_arg0 main_v387 main_v388 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

abbrev rc28 : List (HloOp τ sig (Elt F)) :=
  [ nullary main_c_65 (constantI S_ 32 0#32),
    unary main_c_65 main_v389 (broadcastInDim S850000 ![] bcast_S_S850000 : (⟨S_, .i32⟩ : BufTy).Contents (Elt F) → (⟨S850000, .i32⟩ : BufTy).Contents (Elt F)),
    binary main_v5 main_v389 main_v390 (cmpi .slt : (⟨S850000, .i32⟩ : BufTy).Contents (Elt F) → (⟨S850000, .i32⟩ : BufTy).Contents (Elt F) → (⟨S850000, .i1⟩ : BufTy).Contents (Elt F)),
    nullary main_c_66 (constantI S_ 32 50000#32),
    unary main_c_66 main_v391 (broadcastInDim S850000 ![] bcast_S_S850000 : (⟨S_, .i32⟩ : BufTy).Contents (Elt F) → (⟨S850000, .i32⟩ : BufTy).Contents (Elt F)),
    binary main_v5 main_v391 main_v392 (addi : (⟨S850000, .i32⟩ : BufTy).Contents (Elt F) → (⟨S850000, .i32⟩ : BufTy).Contents (Elt F) → (⟨S850000, .i32⟩ : BufTy).Contents (Elt F)),
    ternary main_v390 main_v392 main_v5 main_v393 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v393 main_v394 (broadcastInDim S850000x1 ![0] bcast_S850000_S850000x1_0 : (⟨S850000, .i32⟩ : BufTy).Contents (Elt F) → (⟨S850000x1, .i32⟩ : BufTy).Contents (Elt F)),
    binary main_v388 main_v394 main_v395 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v396 (broadcastInDim S850000x1 ![0] bcast_S850000_S850000x1_0 : (⟨S850000, .f32⟩ : BufTy).Contents (Elt F) → (⟨S850000x1, .f32⟩ : BufTy).Contents (Elt F)),
    unary main_v396 main_v397 (broadcastInDim S850000x128 ![0, 1] bcast_S850000x1_S850000x128_0_1 : (⟨S850000x1, .f32⟩ : BufTy).Contents (Elt F) → (⟨S850000x128, .f32⟩ : BufTy).Contents (Elt F)),
    binary main_v395 main_v397 main_v398 (mulf : (⟨S850000x128, .f32⟩ : BufTy).Contents (Elt F) → (⟨S850000x128, .f32⟩ : BufTy).Contents (Elt F) → (⟨S850000x128, .f32⟩ : BufTy).Contents (Elt F)),
    nullary main_cst_67 (constant S_ .f32 0x00000000#32),
    unary main_cst_67 main_v399 (broadcastInDim S50000x128 ![] bcast_S_S50000x128 : (⟨S_, .f32⟩ : BufTy).Contents (Elt F) → (⟨S50000x128, .f32⟩ : BufTy).Contents (Elt F)),
    unary main_v6 main_v400 (broadcastInDim S850000x1 ![0] bcast_S850000_S850000x1_0 : (⟨S850000, .i32⟩ : BufTy).Contents (Elt F) → (⟨S850000x1, .i32⟩ : BufTy).Contents (Elt F)),
    ternary main_v399 main_v400 main_v398 main_v401 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v402 ((extractStridedSlice S1x128 ![3, 0] · slices_S4x128_S1x128_3_0) : (⟨S4x128, .f32⟩ : BufTy).Contents (Elt F) → (⟨S1x128, .f32⟩ : BufTy).Contents (Elt F)),
    reshape main_v402 main_v403 rfl shapeCasts_S1x128_S128,
    unary main_v403 main_v404 (broadcastInDim S1x128 ![1] bcast_S128_S1x128_1 : (⟨S128, .f32⟩ : BufTy).Contents (Elt F) → (⟨S1x128, .f32⟩ : BufTy).Contents (Elt F)),
    unary main_v404 main_v405 (broadcastInDim S50000x128 ![0, 1] bcast_S1x128_S50000x128_0_1 : (⟨S1x128, .f32⟩ : BufTy).Contents (Elt F) → (⟨S50000x128, .f32⟩ : BufTy).Contents (Elt F)),
    binary main_v401 main_v405 main_v406 (addf : (⟨S50000x128, .f32⟩ : BufTy).Contents (Elt F) → (⟨S50000x128, .f32⟩ : BufTy).Contents (Elt F) → (⟨S50000x128, .f32⟩ : BufTy).Contents (Elt F)),
    unary main_arg6 main_v407 ((extractStridedSlice S1x128 ![3, 0] · slices_S4x128_S1x128_3_0) : (⟨S4x128, .f32⟩ : BufTy).Contents (Elt F) → (⟨S1x128, .f32⟩ : BufTy).Contents (Elt F)),
    reshape main_v407 main_v408 rfl shapeCasts_S1x128_S128,
    unary main_arg7 main_v409 ((extractStridedSlice S1x128 ![3, 0] · slices_S4x128_S1x128_3_0) : (⟨S4x128, .f32⟩ : BufTy).Contents (Elt F) → (⟨S1x128, .f32⟩ : BufTy).Contents (Elt F)),
    reshape main_v409 main_v410 rfl shapeCasts_S1x128_S128,
    nullary main_cst_68 (constant S_ .f32 0x00000000#32),
    binary main_v406 main_cst_68 main_v411 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_69 (constant S_ .f32 0x47435000#32),
    unary main_cst_69 main_v412 (broadcastInDim S128 ![] bcast_S_S128 : (⟨S_, .f32⟩ : BufTy).Contents (Elt F) → (⟨S128, .f32⟩ : BufTy).Contents (Elt F)),
    binary main_v411 main_v412 main_v413 (Host.divf : (⟨S128, .f32⟩ : BufTy).Contents (Elt F) → (⟨S128, .f32⟩ : BufTy).Contents (Elt F) → (⟨S128, .f32⟩ : BufTy).Contents (Elt F)),
    unary main_v413 main_v414 (broadcastInDim S1x128 ![1] bcast_S128_S1x128_1 : (⟨S128, .f32⟩ : BufTy).Contents (Elt F) → (⟨S1x128, .f32⟩ : BufTy).Contents (Elt F)),
    unary main_v414 main_v415 (broadcastInDim S50000x128 ![0, 1] bcast_S1x128_S50000x128_0_1 : (⟨S1x128, .f32⟩ : BufTy).Contents (Elt F) → (⟨S50000x128, .f32⟩ : BufTy).Contents (Elt F)),
    binary main_v406 main_v415 main_v416 (subf : (⟨S50000x128, .f32⟩ : BufTy).Contents (Elt F) → (⟨S50000x128, .f32⟩ : BufTy).Contents (Elt F) → (⟨S50000x128, .f32⟩ : BufTy).Contents (Elt F)),
    binary main_v416 main_v416 main_v417 (mulf : (⟨S50000x128, .f32⟩ : BufTy).Contents (Elt F) → (⟨S50000x128, .f32⟩ : BufTy).Contents (Elt F) → (⟨S50000x128, .f32⟩ : BufTy).Contents (Elt F)),
    nullary main_cst_70 (constant S_ .f32 0x00000000#32),
    binary main_v417 main_cst_70 main_v418 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_71 (constant S_ .f32 0x47435000#32),
    unary main_cst_71 main_v419 (broadcastInDim S128 ![] bcast_S_S128 : (⟨S_, .f32⟩ : BufTy).Contents (Elt F) → (⟨S128, .f32⟩ : BufTy).Contents (Elt F)),
    binary main_v418 main_v419 main_v420 (Host.divf : (⟨S128, .f32⟩ : BufTy).Contents (Elt F) → (⟨S128, .f32⟩ : BufTy).Contents (Elt F) → (⟨S128, .f32⟩ : BufTy).Contents (Elt F)) ]

abbrev rc29 : List (HloOp τ sig (Elt F)) :=
  [ unary main_v413 main_v421 (broadcastInDim S1x128 ![1] bcast_S128_S1x128_1 : (⟨S128, .f32⟩ : BufTy).Contents (Elt F) → (⟨S1x128, .f32⟩ : BufTy).Contents (Elt F)),
    unary main_v421 main_v422 (broadcastInDim S50000x128 ![0, 1] bcast_S1x128_S50000x128_0_1 : (⟨S1x128, .f32⟩ : BufTy).Contents (Elt F) → (⟨S50000x128, .f32⟩ : BufTy).Contents (Elt F)),
    binary main_v406 main_v422 main_v423 (subf : (⟨S50000x128, .f32⟩ : BufTy).Contents (Elt F) → (⟨S50000x128, .f32⟩ : BufTy).Contents (Elt F) → (⟨S50000x128, .f32⟩ : BufTy).Contents (Elt F)),
    nullary main_cst_72 (constant S_ .f32 0x3727C5AC#32),
    unary main_cst_72 main_v424 (broadcastInDim S128 ![] bcast_S_S128 : (⟨S_, .f32⟩ : BufTy).Contents (Elt F) → (⟨S128, .f32⟩ : BufTy).Contents (Elt F)),
    binary main_v420 main_v424 main_v425 (addf : (⟨S128, .f32⟩ : BufTy).Contents (Elt F) → (⟨S128, .f32⟩ : BufTy).Contents (Elt F) → (⟨S128, .f32⟩ : BufTy).Contents (Elt F)),
    unary main_v425 main_v426 (Host.rsqrt : (⟨S128, .f32⟩ : BufTy).Contents (Elt F) → (⟨S128, .f32⟩ : BufTy).Contents (Elt F)),
    unary main_v426 main_v427 (broadcastInDim S1x128 ![1] bcast_S128_S1x128_1 : (⟨S128, .f32⟩ : BufTy).Contents (Elt F) → (⟨S1x128, .f32⟩ : BufTy).Contents (Elt F)),
    unary main_v427 main_v428 (broadcastInDim S50000x128 ![0, 1] bcast_S1x128_S50000x128_0_1 : (⟨S1x128, .f32⟩ : BufTy).Contents (Elt F) → (⟨S50000x128, .f32⟩ : BufTy).Contents (Elt F)),
    binary main_v423 main_v428 main_v429 (mulf : (⟨S50000x128, .f32⟩ : BufTy).Contents (Elt F) → (⟨S50000x128, .f32⟩ : BufTy).Contents (Elt F) → (⟨S50000x128, .f32⟩ : BufTy).Contents (Elt F)),
    unary main_v408 main_v430 (broadcastInDim S1x128 ![1] bcast_S128_S1x128_1 : (⟨S128, .f32⟩ : BufTy).Contents (Elt F) → (⟨S1x128, .f32⟩ : BufTy).Contents (Elt F)),
    unary main_v430 main_v431 (broadcastInDim S50000x128 ![0, 1] bcast_S1x128_S50000x128_0_1 : (⟨S1x128, .f32⟩ : BufTy).Contents (Elt F) → (⟨S50000x128, .f32⟩ : BufTy).Contents (Elt F)),
    binary main_v429 main_v431 main_v432 (mulf : (⟨S50000x128, .f32⟩ : BufTy).Contents (Elt F) → (⟨S50000x128, .f32⟩ : BufTy).Contents (Elt F) → (⟨S50000x128, .f32⟩ : BufTy).Contents (Elt F)),
    unary main_v410 main_v433 (broadcastInDim S1x128 ![1] bcast_S128_S1x128_1 : (⟨S128, .f32⟩ : BufTy).Contents (Elt F) → (⟨S1x128, .f32⟩ : BufTy).Contents (Elt F)),
    unary main_v433 main_v434 (broadcastInDim S50000x128 ![0, 1] bcast_S1x128_S50000x128_0_1 : (⟨S1x128, .f32⟩ : BufTy).Contents (Elt F) → (⟨S50000x128, .f32⟩ : BufTy).Contents (Elt F)),
    binary main_v432 main_v434 main_v435 (addf : (⟨S50000x128, .f32⟩ : BufTy).Contents (Elt F) → (⟨S50000x128, .f32⟩ : BufTy).Contents (Elt F) → (⟨S50000x128, .f32⟩ : BufTy).Contents (Elt F)),
    nullary main_cst_73 (constant S_ .f32 0x00000000#32),
    unary main_cst_73 main_v436 (broadcastInDim S50000x128 ![] bcast_S_S50000x128 : (⟨S_, .f32⟩ : BufTy).Contents (Elt F) → (⟨S50000x128, .f32⟩ : BufTy).Contents (Elt F)),
    binary main_v435 main_v436 main_v437 (cmpf .ogt : (⟨S50000x128, .f32⟩ : BufTy).Contents (Elt F) → (⟨S50000x128, .f32⟩ : BufTy).Contents (Elt F) → (⟨S50000x128, .i1⟩ : BufTy).Contents (Elt F)),
    unary main_arg10 main_v438 (broadcastInDim S50000x128 ![] bcast_S_S50000x128 : (⟨S_, .f32⟩ : BufTy).Contents (Elt F) → (⟨S50000x128, .f32⟩ : BufTy).Contents (Elt F)),
    binary main_v438 main_v435 main_v439 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v437) (TRef.of (T := ⟨S50000x128, .f32⟩) main_v435) (TRef.of (T := ⟨S50000x128, .f32⟩) main_v439) (TRef.of (T := ⟨S50000x128, .f32⟩) main_v440) select ]

abbrev rc30 : List (HloOp τ sig (Elt F)) :=
  [ unary main_arg4 main_v441 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v441 main_v442 rfl shapeCasts_S1x128x128_S128x128 ]

abbrev rc31 : List (HloOp τ sig (Elt F)) :=
  [ binary main_v440 main_v442 main_v443 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

abbrev rc32 : List (HloOp τ sig (Elt F)) :=
  [ nullary main_c_74 (constantI S_ 32 0#32),
    unary main_c_74 main_v444 (broadcastInDim S850000 ![] bcast_S_S850000 : (⟨S_, .i32⟩ : BufTy).Contents (Elt F) → (⟨S850000, .i32⟩ : BufTy).Contents (Elt F)),
    binary main_v5 main_v444 main_v445 (cmpi .slt : (⟨S850000, .i32⟩ : BufTy).Contents (Elt F) → (⟨S850000, .i32⟩ : BufTy).Contents (Elt F) → (⟨S850000, .i1⟩ : BufTy).Contents (Elt F)),
    nullary main_c_75 (constantI S_ 32 50000#32),
    unary main_c_75 main_v446 (broadcastInDim S850000 ![] bcast_S_S850000 : (⟨S_, .i32⟩ : BufTy).Contents (Elt F) → (⟨S850000, .i32⟩ : BufTy).Contents (Elt F)),
    binary main_v5 main_v446 main_v447 (addi : (⟨S850000, .i32⟩ : BufTy).Contents (Elt F) → (⟨S850000, .i32⟩ : BufTy).Contents (Elt F) → (⟨S850000, .i32⟩ : BufTy).Contents (Elt F)),
    ternary main_v445 main_v447 main_v5 main_v448 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v448 main_v449 (broadcastInDim S850000x1 ![0] bcast_S850000_S850000x1_0 : (⟨S850000, .i32⟩ : BufTy).Contents (Elt F) → (⟨S850000x1, .i32⟩ : BufTy).Contents (Elt F)),
    binary main_v443 main_v449 main_v450 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v451 (broadcastInDim S850000x1 ![0] bcast_S850000_S850000x1_0 : (⟨S850000, .f32⟩ : BufTy).Contents (Elt F) → (⟨S850000x1, .f32⟩ : BufTy).Contents (Elt F)),
    unary main_v451 main_v452 (broadcastInDim S850000x128 ![0, 1] bcast_S850000x1_S850000x128_0_1 : (⟨S850000x1, .f32⟩ : BufTy).Contents (Elt F) → (⟨S850000x128, .f32⟩ : BufTy).Contents (Elt F)),
    binary main_v450 main_v452 main_v453 (mulf : (⟨S850000x128, .f32⟩ : BufTy).Contents (Elt F) → (⟨S850000x128, .f32⟩ : BufTy).Contents (Elt F) → (⟨S850000x128, .f32⟩ : BufTy).Contents (Elt F)),
    nullary main_cst_76 (constant S_ .f32 0x00000000#32),
    unary main_cst_76 main_v454 (broadcastInDim S50000x128 ![] bcast_S_S50000x128 : (⟨S_, .f32⟩ : BufTy).Contents (Elt F) → (⟨S50000x128, .f32⟩ : BufTy).Contents (Elt F)),
    unary main_v6 main_v455 (broadcastInDim S850000x1 ![0] bcast_S850000_S850000x1_0 : (⟨S850000, .i32⟩ : BufTy).Contents (Elt F) → (⟨S850000x1, .i32⟩ : BufTy).Contents (Elt F)),
    ternary main_v454 main_v455 main_v453 main_v456 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v457 ((extractStridedSlice S1x128 ![3, 0] · slices_S4x128_S1x128_3_0) : (⟨S4x128, .f32⟩ : BufTy).Contents (Elt F) → (⟨S1x128, .f32⟩ : BufTy).Contents (Elt F)),
    reshape main_v457 main_v458 rfl shapeCasts_S1x128_S128,
    unary main_v458 main_v459 (broadcastInDim S1x128 ![1] bcast_S128_S1x128_1 : (⟨S128, .f32⟩ : BufTy).Contents (Elt F) → (⟨S1x128, .f32⟩ : BufTy).Contents (Elt F)),
    unary main_v459 main_v460 (broadcastInDim S50000x128 ![0, 1] bcast_S1x128_S50000x128_0_1 : (⟨S1x128, .f32⟩ : BufTy).Contents (Elt F) → (⟨S50000x128, .f32⟩ : BufTy).Contents (Elt F)),
    binary main_v456 main_v460 main_v461 (addf : (⟨S50000x128, .f32⟩ : BufTy).Contents (Elt F) → (⟨S50000x128, .f32⟩ : BufTy).Contents (Elt F) → (⟨S50000x128, .f32⟩ : BufTy).Contents (Elt F)),
    unary main_arg8 main_v462 ((extractStridedSlice S1x128 ![3, 0] · slices_S4x128_S1x128_3_0) : (⟨S4x128, .f32⟩ : BufTy).Contents (Elt F) → (⟨S1x128, .f32⟩ : BufTy).Contents (Elt F)),
    reshape main_v462 main_v463 rfl shapeCasts_S1x128_S128,
    unary main_arg9 main_v464 ((extractStridedSlice S1x128 ![3, 0] · slices_S4x128_S1x128_3_0) : (⟨S4x128, .f32⟩ : BufTy).Contents (Elt F) → (⟨S1x128, .f32⟩ : BufTy).Contents (Elt F)),
    reshape main_v464 main_v465 rfl shapeCasts_S1x128_S128,
    nullary main_cst_77 (constant S_ .f32 0x00000000#32),
    binary main_v461 main_cst_77 main_v466 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_78 (constant S_ .f32 0x47435000#32),
    unary main_cst_78 main_v467 (broadcastInDim S128 ![] bcast_S_S128 : (⟨S_, .f32⟩ : BufTy).Contents (Elt F) → (⟨S128, .f32⟩ : BufTy).Contents (Elt F)),
    binary main_v466 main_v467 main_v468 (Host.divf : (⟨S128, .f32⟩ : BufTy).Contents (Elt F) → (⟨S128, .f32⟩ : BufTy).Contents (Elt F) → (⟨S128, .f32⟩ : BufTy).Contents (Elt F)),
    unary main_v468 main_v469 (broadcastInDim S1x128 ![1] bcast_S128_S1x128_1 : (⟨S128, .f32⟩ : BufTy).Contents (Elt F) → (⟨S1x128, .f32⟩ : BufTy).Contents (Elt F)),
    unary main_v469 main_v470 (broadcastInDim S50000x128 ![0, 1] bcast_S1x128_S50000x128_0_1 : (⟨S1x128, .f32⟩ : BufTy).Contents (Elt F) → (⟨S50000x128, .f32⟩ : BufTy).Contents (Elt F)),
    binary main_v461 main_v470 main_v471 (subf : (⟨S50000x128, .f32⟩ : BufTy).Contents (Elt F) → (⟨S50000x128, .f32⟩ : BufTy).Contents (Elt F) → (⟨S50000x128, .f32⟩ : BufTy).Contents (Elt F)),
    binary main_v471 main_v471 main_v472 (mulf : (⟨S50000x128, .f32⟩ : BufTy).Contents (Elt F) → (⟨S50000x128, .f32⟩ : BufTy).Contents (Elt F) → (⟨S50000x128, .f32⟩ : BufTy).Contents (Elt F)),
    nullary main_cst_79 (constant S_ .f32 0x00000000#32),
    binary main_v472 main_cst_79 main_v473 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_80 (constant S_ .f32 0x47435000#32),
    unary main_cst_80 main_v474 (broadcastInDim S128 ![] bcast_S_S128 : (⟨S_, .f32⟩ : BufTy).Contents (Elt F) → (⟨S128, .f32⟩ : BufTy).Contents (Elt F)),
    binary main_v473 main_v474 main_v475 (Host.divf : (⟨S128, .f32⟩ : BufTy).Contents (Elt F) → (⟨S128, .f32⟩ : BufTy).Contents (Elt F) → (⟨S128, .f32⟩ : BufTy).Contents (Elt F)) ]

abbrev rc33 : List (HloOp τ sig (Elt F)) :=
  [ unary main_v468 main_v476 (broadcastInDim S1x128 ![1] bcast_S128_S1x128_1 : (⟨S128, .f32⟩ : BufTy).Contents (Elt F) → (⟨S1x128, .f32⟩ : BufTy).Contents (Elt F)),
    unary main_v476 main_v477 (broadcastInDim S50000x128 ![0, 1] bcast_S1x128_S50000x128_0_1 : (⟨S1x128, .f32⟩ : BufTy).Contents (Elt F) → (⟨S50000x128, .f32⟩ : BufTy).Contents (Elt F)),
    binary main_v461 main_v477 main_v478 (subf : (⟨S50000x128, .f32⟩ : BufTy).Contents (Elt F) → (⟨S50000x128, .f32⟩ : BufTy).Contents (Elt F) → (⟨S50000x128, .f32⟩ : BufTy).Contents (Elt F)),
    nullary main_cst_81 (constant S_ .f32 0x3727C5AC#32),
    unary main_cst_81 main_v479 (broadcastInDim S128 ![] bcast_S_S128 : (⟨S_, .f32⟩ : BufTy).Contents (Elt F) → (⟨S128, .f32⟩ : BufTy).Contents (Elt F)),
    binary main_v475 main_v479 main_v480 (addf : (⟨S128, .f32⟩ : BufTy).Contents (Elt F) → (⟨S128, .f32⟩ : BufTy).Contents (Elt F) → (⟨S128, .f32⟩ : BufTy).Contents (Elt F)),
    unary main_v480 main_v481 (Host.rsqrt : (⟨S128, .f32⟩ : BufTy).Contents (Elt F) → (⟨S128, .f32⟩ : BufTy).Contents (Elt F)),
    unary main_v481 main_v482 (broadcastInDim S1x128 ![1] bcast_S128_S1x128_1 : (⟨S128, .f32⟩ : BufTy).Contents (Elt F) → (⟨S1x128, .f32⟩ : BufTy).Contents (Elt F)),
    unary main_v482 main_v483 (broadcastInDim S50000x128 ![0, 1] bcast_S1x128_S50000x128_0_1 : (⟨S1x128, .f32⟩ : BufTy).Contents (Elt F) → (⟨S50000x128, .f32⟩ : BufTy).Contents (Elt F)),
    binary main_v478 main_v483 main_v484 (mulf : (⟨S50000x128, .f32⟩ : BufTy).Contents (Elt F) → (⟨S50000x128, .f32⟩ : BufTy).Contents (Elt F) → (⟨S50000x128, .f32⟩ : BufTy).Contents (Elt F)),
    unary main_v463 main_v485 (broadcastInDim S1x128 ![1] bcast_S128_S1x128_1 : (⟨S128, .f32⟩ : BufTy).Contents (Elt F) → (⟨S1x128, .f32⟩ : BufTy).Contents (Elt F)),
    unary main_v485 main_v486 (broadcastInDim S50000x128 ![0, 1] bcast_S1x128_S50000x128_0_1 : (⟨S1x128, .f32⟩ : BufTy).Contents (Elt F) → (⟨S50000x128, .f32⟩ : BufTy).Contents (Elt F)),
    binary main_v484 main_v486 main_v487 (mulf : (⟨S50000x128, .f32⟩ : BufTy).Contents (Elt F) → (⟨S50000x128, .f32⟩ : BufTy).Contents (Elt F) → (⟨S50000x128, .f32⟩ : BufTy).Contents (Elt F)),
    unary main_v465 main_v488 (broadcastInDim S1x128 ![1] bcast_S128_S1x128_1 : (⟨S128, .f32⟩ : BufTy).Contents (Elt F) → (⟨S1x128, .f32⟩ : BufTy).Contents (Elt F)),
    unary main_v488 main_v489 (broadcastInDim S50000x128 ![0, 1] bcast_S1x128_S50000x128_0_1 : (⟨S1x128, .f32⟩ : BufTy).Contents (Elt F) → (⟨S50000x128, .f32⟩ : BufTy).Contents (Elt F)),
    binary main_v487 main_v489 main_v490 (addf : (⟨S50000x128, .f32⟩ : BufTy).Contents (Elt F) → (⟨S50000x128, .f32⟩ : BufTy).Contents (Elt F) → (⟨S50000x128, .f32⟩ : BufTy).Contents (Elt F)),
    nullary main_cst_82 (constant S_ .f32 0x00000000#32),
    unary main_cst_82 main_v491 (broadcastInDim S50000x128 ![] bcast_S_S50000x128 : (⟨S_, .f32⟩ : BufTy).Contents (Elt F) → (⟨S50000x128, .f32⟩ : BufTy).Contents (Elt F)),
    binary main_v490 main_v491 main_v492 (cmpf .ogt : (⟨S50000x128, .f32⟩ : BufTy).Contents (Elt F) → (⟨S50000x128, .f32⟩ : BufTy).Contents (Elt F) → (⟨S50000x128, .i1⟩ : BufTy).Contents (Elt F)),
    unary main_arg10 main_v493 (broadcastInDim S50000x128 ![] bcast_S_S50000x128 : (⟨S_, .f32⟩ : BufTy).Contents (Elt F) → (⟨S50000x128, .f32⟩ : BufTy).Contents (Elt F)),
    binary main_v493 main_v490 main_v494 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v492) (TRef.of (T := ⟨S50000x128, .f32⟩) main_v490) (TRef.of (T := ⟨S50000x128, .f32⟩) main_v494) (TRef.of (T := ⟨S50000x128, .f32⟩) main_v495) select,
    unary main_v42 main_v496 ((extractStridedSlice S50000x1 ![0, 3] · slices_S50000x4_S50000x1_0_3) : (⟨S50000x4, .f32⟩ : BufTy).Contents (Elt F) → (⟨S50000x1, .f32⟩ : BufTy).Contents (Elt F)),
    unary main_v496 main_v497 (broadcastInDim S50000x128 ![0, 1] bcast_S50000x1_S50000x128_0_1 : (⟨S50000x1, .f32⟩ : BufTy).Contents (Elt F) → (⟨S50000x128, .f32⟩ : BufTy).Contents (Elt F)),
    binary main_v497 main_v495 main_v498 (mulf : (⟨S50000x128, .f32⟩ : BufTy).Contents (Elt F) → (⟨S50000x128, .f32⟩ : BufTy).Contents (Elt F) → (⟨S50000x128, .f32⟩ : BufTy).Contents (Elt F)),
    binary main_v385 main_v498 main_v499 (addf : (⟨S50000x128, .f32⟩ : BufTy).Contents (Elt F) → (⟨S50000x128, .f32⟩ : BufTy).Contents (Elt F) → (⟨S50000x128, .f32⟩ : BufTy).Contents (Elt F)) ]

end Cert.ReferenceIdeal.Chunks

end
-- ==== Proof.SimDefs.lean ====
import proofs.«151858_j43868795961412_1_alg».proof.KernelIdeal
import proofs.«151858_j43868795961412_1_alg».proof.ReferenceIdeal
import Idealize.ShloMosaic.Lib.StableHlo.Run
import Idealize.ShloMosaic.Lib.ValueIdx

noncomputable section

namespace Cert.Sim

open Idealize.ShloMosaic Idealize.ShloMosaic.ValueIdx Idealize.ShloMosaic.StableHlo Cert.KernelIdeal

variable {F : FTy → Type} [FloatOps F]

/-- A valuation of the kernel program's TensorCore buffers, one of the reference's, and a buffer of each as a device reference. -/
abbrev KV (F : FTy → Type) := Valuation τ sig (Elt F)
abbrev RV (F : FTy → Type) := Valuation Cert.ReferenceIdeal.τ Cert.ReferenceIdeal.sig (Elt F)
abbrev kd (b : Ref sig .tc) : DevRef τ sig := Proc.devRef .tc b
abbrev rd (b : Ref Cert.ReferenceIdeal.sig .tc) : DevRef Cert.ReferenceIdeal.τ Cert.ReferenceIdeal.sig := Proc.devRef .tc b

/-- The reference's buffers that every branch reads and no later chunk writes. -/
abbrev carriedR : List (Ref Cert.ReferenceIdeal.sig .tc) :=
  [Cert.ReferenceIdeal.main_arg0, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_v5, Cert.ReferenceIdeal.main_v6, Cert.ReferenceIdeal.main_v31, Cert.ReferenceIdeal.main_v42]

/-- The two valuations agree on what both programs compute once and every branch reads; the slope is a row in one and a scalar in the other. -/
structure Carried (Wk : KV F) (Rr : RV F) : Prop where
  a0 : Wk (kd main_arg0) = Rr (rd Cert.ReferenceIdeal.main_arg0)
  a2 : Wk (kd main_arg2) = Rr (rd Cert.ReferenceIdeal.main_arg2)
  a3 : Wk (kd main_arg3) = Rr (rd Cert.ReferenceIdeal.main_arg3)
  a4 : Wk (kd main_arg4) = Rr (rd Cert.ReferenceIdeal.main_arg4)
  a5 : Wk (kd main_arg5) = Rr (rd Cert.ReferenceIdeal.main_arg5)
  a6 : Wk (kd main_arg6) = Rr (rd Cert.ReferenceIdeal.main_arg6)
  a7 : Wk (kd main_arg7) = Rr (rd Cert.ReferenceIdeal.main_arg7)
  a8 : Wk (kd main_arg8) = Rr (rd Cert.ReferenceIdeal.main_arg8)
  a9 : Wk (kd main_arg9) = Rr (rd Cert.ReferenceIdeal.main_arg9)
  row : Wk (kd main_v5) = Rr (rd Cert.ReferenceIdeal.main_v5)
  col : Wk (kd main_v6) = Rr (rd Cert.ReferenceIdeal.main_v6)
  nrm : Wk (kd main_v31) = Rr (rd Cert.ReferenceIdeal.main_v31)
  mix : Wk (kd main_v42) = Rr (rd Cert.ReferenceIdeal.main_v42)
  alpha : ∀ q : Fin 128, (Wk (kd main_v44) : Vec F S1x128 .f32) (ix2 (0 : Fin 1) q)
      = (Rr (rd Cert.ReferenceIdeal.main_arg10) : Vec F Cert.ReferenceIdeal.S_ .f32) ix0

end Cert.Sim

end
-- ==== Proof.RefRun.lean ====
import proofs.«151858_j43868795961412_1_alg».proof.Proof.RefOps
import proofs.«151858_j43868795961412_1_alg».proof.Proof.SimDefs
import Idealize.ShloMosaic.Lib.StableHlo.RunLoop

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F)) (r : Ref sig .tc)

/-- The chunks in program order. -/
noncomputable def rcs : List (List (HloOp τ sig (Elt F))) :=
  [rc0, rc1, rc2, rc3, rc4, rc5, rc6, rc7, rc8, rc9, rc10, rc11, rc12, rc13, rc14, rc15, rc16, rc17, rc18, rc19, rc20, rc21, rc22, rc23, rc24, rc25, rc26, rc27, rc28, rc29, rc30, rc31, rc32, rc33]

/-- The contents after chunks 0 … n-1, from the contents at launch. -/
def R (n : Nat) (V : Valuation τ sig (Elt F)) : Valuation τ sig (Elt F) := afterL (rcs.take n) V

abbrev R0 := R (F := F) 0
abbrev R1 := R (F := F) 1
abbrev R2 := R (F := F) 2
abbrev R3 := R (F := F) 3
abbrev R4 := R (F := F) 4
abbrev R5 := R (F := F) 5
abbrev R6 := R (F := F) 6
abbrev R7 := R (F := F) 7
abbrev R8 := R (F := F) 8
abbrev R9 := R (F := F) 9
abbrev R10 := R (F := F) 10
abbrev R11 := R (F := F) 11
abbrev R12 := R (F := F) 12
abbrev R13 := R (F := F) 13
abbrev R14 := R (F := F) 14
abbrev R15 := R (F := F) 15
abbrev R16 := R (F := F) 16
abbrev R17 := R (F := F) 17
abbrev R18 := R (F := F) 18
abbrev R19 := R (F := F) 19
abbrev R20 := R (F := F) 20
abbrev R21 := R (F := F) 21
abbrev R22 := R (F := F) 22
abbrev R23 := R (F := F) 23
abbrev R24 := R (F := F) 24
abbrev R25 := R (F := F) 25
abbrev R26 := R (F := F) 26
abbrev R27 := R (F := F) 27
abbrev R28 := R (F := F) 28
abbrev R29 := R (F := F) 29
abbrev R30 := R (F := F) 30
abbrev R31 := R (F := F) 31
abbrev R32 := R (F := F) 32
abbrev R33 := R (F := F) 33
abbrev R34 := R (F := F) 34

/-- One more stretch taken is that stretch run after the others. -/
theorem afterL_take_succ : ∀ (l : List (List (HloOp τ sig (Elt F)))) (n : Nat) (V : Valuation τ sig (Elt F)),
    afterL (l.take (n + 1)) V = after (l.getD n []) (afterL (l.take n) V)
  | [], n, V => by rw [List.take_nil, List.take_nil]; rfl
  | _ :: _, 0, _ => rfl
  | c :: l, n + 1, V => afterL_take_succ l n (after c V)

theorem R_succ (n : Nat) : R (n + 1) V0 = after (rcs.getD n []) (R n V0) := afterL_take_succ rcs n V0

/-- Operation `j` of the 587 writes buffer `11 + j`: the number of the first buffer each chunk writes. -/
def rcCut : List Nat := [12, 32, 35, 73, 74, 113, 135, 137, 138, 177, 203, 205, 206, 245, 267, 269, 270, 309, 335, 337, 338, 377, 399, 401, 402, 441, 467, 469, 470, 509, 531, 533, 534, 573]

/-- The buffers chunk `n` writes: those numbered from its first up to the next chunk's first. -/
def rcW (n : Nat) : List (Ref sig .tc) :=
  (List.range' (rcCut.getD n 599) (rcCut.getD (n + 1) 599 - rcCut.getD n 599)).map fun i => ⟨.hbm, Fin.ofNat _ i, rfl⟩

/-- Each operation writes its result buffer alone, and those are the listed buffers in order: by computation. -/
theorem rc_writes (n : Nat) :
    ((rcs (F := F)).getD n []).map HloOp.writes = (rcW n).map fun y => {Proc.devRef (τ := τ) .tc y} := by
  iterate 34
    rcases n with _ | n
    · rfl
  rfl

/-- A buffer chunk `n` does not write keeps its contents through it. -/
theorem R_keep (n : Nat) (h : r ∉ rcW n) : R (n + 1) V0 r = R n V0 r := by
  rw [R_succ]
  refine after_of_forall_not_mem _ _ fun op hop hb => ?_
  have hw := List.mem_map_of_mem (f := HloOp.writes) hop
  rw [rc_writes n] at hw
  obtain ⟨y, hy, he⟩ := List.mem_map.mp hw
  rw [← he, Finset.mem_singleton] at hb
  exact h (Proc.devRef_injective _ hb ▸ hy)

/-- A buffer none of the chunks `a` … `b - 1` writes is after them what it was before them. -/
theorem R_keep_le {a b : Nat} (hab : a ≤ b) (h : ∀ k < b, a ≤ k → r ∉ rcW k) : R b V0 r = R a V0 r := by
  induction hab with
  | refl => rfl
  | step hab ih => exact (R_keep V0 r _ (h _ (Nat.lt_succ_self _) hab)).trans (ih fun k hk => h k (Nat.lt_succ_of_lt hk))

/-- The buffers every branch reads are written by the first three chunks or are arguments. -/
theorem R_carried (n : Nat) (h : 3 ≤ n ∧ n < 34 := by decide) :
    ∀ b ∈ Cert.Sim.carriedR, R (n + 1) V0 (Proc.devRef .tc b) = R n V0 (Proc.devRef .tc b) := fun b hb =>
  R_keep V0 b n ((by decide : ∀ n < 34, 3 ≤ n → ∀ b ∈ Cert.Sim.carriedR, b ∉ rcW n) n h.2 h.1 b hb)

/-- All the operations, in order. -/
abbrev allOps : List (HloOp τ sig (Elt F)) := rcs.flatten

/-- A line run in order is a prefix of it, then the rest. -/
theorem seq_split {Λ : Labels} (n : Nat) (l : List (HloOp τ sig (Elt F))) :
    (seq l : Prog (TpuEff nD τ sig (Elt F) Λ .tc) PUnit) = seq (l.take n) >>= fun _ => seq (l.drop n) := by
  rw [← seq_append, List.take_append_drop]

/-- @main is ten parts run in a row, and each part's operations are the next slice of the list. -/
theorem main_eq (c : Dev nD) : main (F := F) c = seq allOps := by
  rw [seq_split 62 allOps]
  iterate 8 rw [seq_split 60 (List.drop _ _)]
  rfl

/-- Every buffer an operation of this program touches is a device buffer. -/
theorem mem_tcRefs : ∀ b : DevRef τ sig, b ∈ tcRefs τ sig
  | ⟨.hbm, i, _⟩ => Finset.mem_map.mpr ⟨⟨.hbm, i, rfl⟩, Finset.mem_univ _, rfl⟩
  | ⟨.host, i, _⟩ | ⟨.shared, i, _⟩ | ⟨.local .tc .vmem, i, _⟩ | ⟨.local .tc .smem, i, _⟩ | ⟨.local .scScalar _, i, _⟩
  | ⟨.local .scVector _, i, _⟩ => i.elim0

/-- No operation allocates a buffer: by computation. -/
theorem allOps_fresh : ∀ op ∈ (allOps : List (HloOp τ sig (Elt F))), op.fresh = ∅ := fun _ h =>
  List.eq_of_mem_replicate (a := ∅) (n := 587) (List.mem_map_of_mem (f := HloOp.fresh) h)

/-- @main is a straight line of operations that touch device buffers only and allocate none. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = R34 (launchContents m c) (Proc.devRef .tc b) :=
  (θ_run defs _ _).mono
    (fun _ h c b => (h c b).trans (congrFun (afterL_eq_after_flatten rcs _).symm _))
    (run_seq (by decide) (by decide) defs main (fun _ => allOps) main_eq
      (fun _ => List.forall_iff_forall_mem.mpr fun _ _ b _ => mem_tcRefs b) m ρ fun _ => allOps_fresh)

end Cert.ReferenceIdeal.Chunks

namespace Cert.Sim

open Cert.ReferenceIdeal Cert.ReferenceIdeal.Chunks Idealize.ShloMosaic

variable {F : FTy → Type} [FloatOps F]

/-- The argument arrays are numbered below every chunk's first written buffer. -/
theorem R34_arg (V0 : RV F) (b : Ref sig .tc)
    (hb : b ∈ [main_arg0, main_arg1, main_arg2, main_arg3, main_arg4, main_arg5, main_arg6, main_arg7, main_arg8, main_arg9, main_arg10, main_arg11]) :
    R34 V0 (rd b) = V0 (rd b) :=
  R_keep_le V0 b (Nat.zero_le 34) (by revert b hb; decide)

end Cert.Sim

end
-- ==== Proof.Kept.lean ====
import Idealize.ShloMosaic.Lib.StableHlo.Run

noncomputable section

namespace Cert.Kept

open Idealize.ShloMosaic Idealize.ShloMosaic.StableHlo

variable {τ : Topo} {sig : RefSig} {Val : EltTy → Type}

/-- `V'` holds at every buffer of `L` what `V` holds there. -/
abbrev Agree (L : List (Ref sig .tc)) (V' V : Valuation τ sig Val) : Prop :=
  ∀ b ∈ L, V' (Proc.devRef .tc b) = V (Proc.devRef .tc b)

theorem Agree.trans {L : List (Ref sig .tc)} {V₁ V₂ V₃ : Valuation τ sig Val} (h : Agree L V₁ V₂)
    (h' : Agree L V₂ V₃) : Agree L V₁ V₃ :=
  fun b hb => (h b hb).trans (h' b hb)

theorem Agree.mono {L L' : List (Ref sig .tc)} {V' V : Valuation τ sig Val} (hs : ∀ b ∈ L', b ∈ L)
    (h : Agree L V' V) : Agree L' V' V :=
  fun b hb => h b (hs b hb)

/-- A line whose operations write one buffer each, those of `W` in order, leaves a buffer outside `W` as it was. -/
theorem kept1 : ∀ {ops : List (HloOp τ sig Val)} {W : List (Ref sig .tc)},
    List.Forall₂ (fun op y => op.writes = {Proc.devRef .tc y}) ops W → ∀ {r : Ref sig .tc}, r ∉ W →
    ∀ V : Valuation τ sig Val, after ops V (Proc.devRef .tc r) = V (Proc.devRef .tc r)
  | _, _, .nil, _, _, _ => rfl
  | _, _, .cons (a := op) h t, _, hr, V => by
    rw [after_cons, kept1 t (List.not_mem_of_not_mem_cons hr), op.result_of_not_mem]
    rw [h, Finset.mem_singleton]
    exact fun e => hr (Proc.devRef_injective _ e ▸ List.mem_cons_self)

theorem keptBy {ops : List (HloOp τ sig Val)} {W L : List (Ref sig .tc)}
    (hW : List.Forall₂ (fun op y => op.writes = {Proc.devRef .tc y}) ops W) (hL : ∀ b ∈ L, b ∉ W)
    (V : Valuation τ sig Val) : Agree L (after ops V) V :=
  fun b hb => kept1 hW (hL b hb) V

/-- If `V'` departs from `V` at the buffers `arr w` only, and at none with `P w`, it keeps what is `arr w` for such `w` alone. -/
theorem keptOf {n : Nat} {arr : Fin n → Ref sig .tc} {P : Fin n → Prop} {V V' : Valuation τ sig Val}
    (hne : ∀ b, (∀ w, arr w ≠ b) → V' (Proc.devRef .tc b) = V (Proc.devRef .tc b))
    (hin : ∀ w, P w → V' (Proc.devRef .tc (arr w)) = V (Proc.devRef .tc (arr w)))
    {L : List (Ref sig .tc)} (hL : ∀ b ∈ L, ∀ w, arr w = b → P w) : Agree L V' V := fun b hb => by
  by_cases h : ∃ w, arr w = b
  · obtain ⟨w, rfl⟩ := h
    exact hin w (hL _ hb w rfl)
  · exact hne b fun w e => h ⟨w, e⟩

end Cert.Kept

end
-- ==== Proof.KKeep.lean ====
import proofs.«151858_j43868795961412_1_alg».proof.Proof.FrameKI
import proofs.«151858_j43868795961412_1_alg».proof.Proof.Kept

noncomputable section

namespace Cert.KernelIdeal.Keep

open Cert.KernelIdeal Cert.KernelIdeal.Gen Cert.KernelIdeal.GenP Cert.Kept
open Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-- The program's arguments. -/
abbrev args : List (Ref sig .tc) :=
  [main_arg0, main_arg1, main_arg2, main_arg3, main_arg4, main_arg5, main_arg6, main_arg7, main_arg8, main_arg9,
   main_arg10, main_arg11]

/-- The arguments, and what the first three lines compute and every branch reads. -/
abbrev kept : List (Ref sig .tc) := args ++ [main_v5, main_v6, main_v31, main_v42, main_v44]

/-- A region's exit valuation departs from its entry valuation at its output windows' arrays only. -/
theorem keep4 (c : Dev nD) : Agree kept (W4 m ρ c) (W3 m ρ c) :=
  keptOf (W4_of_ne m ρ c) (fun w h => (W4_arr m ρ c w).trans
    (((dat0 (V3 m ρ) c).arrAt_in w h _).trans (A_eq0 (V3 m ρ) c w))) (by decide +kernel)
theorem keep5 (c : Dev nD) : Agree kept (W5 m ρ c) (W4 m ρ c) := keptBy (by repeat constructor) (by decide +kernel) _
theorem keep6 (c : Dev nD) : Agree kept (W6 m ρ c) (W5 m ρ c) :=
  keptOf (W6_of_ne m ρ c) (fun w h => (W6_arr m ρ c w).trans
    (((dat1 (V5 m ρ) c).arrAt_in w h _).trans (A_eq1 (V5 m ρ) c w))) (by decide +kernel)
theorem keep7 (c : Dev nD) : Agree kept (W7 m ρ c) (W6 m ρ c) := keptBy (by repeat constructor) (by decide +kernel) _
theorem keep8 (c : Dev nD) : Agree kept (W8 m ρ c) (W7 m ρ c) :=
  keptOf (W8_of_ne m ρ c) (fun w h => (W8_arr m ρ c w).trans
    (((dat2 (V7 m ρ) c).arrAt_in w h _).trans (A_eq2 (V7 m ρ) c w))) (by decide +kernel)
theorem keep9 (c : Dev nD) : Agree kept (W9 m ρ c) (W8 m ρ c) := keptBy (by repeat constructor) (by decide +kernel) _
theorem keep10 (c : Dev nD) : Agree kept (W10 m ρ c) (W9 m ρ c) :=
  keptOf (W10_of_ne m ρ c) (fun w h => (W10_arr m ρ c w).trans
    (((dat3 (V9 m ρ) c).arrAt_in w h _).trans (A_eq3 (V9 m ρ) c w))) (by decide +kernel)
theorem keep11 (c : Dev nD) : Agree kept (W11 m ρ c) (W10 m ρ c) := keptBy (by repeat constructor) (by decide +kernel) _
theorem keep12 (c : Dev nD) : Agree kept (W12 m ρ c) (W11 m ρ c) :=
  keptOf (W12_of_ne m ρ c) (fun w h => (W12_arr m ρ c w).trans
    (((dat4 (V11 m ρ) c).arrAt_in w h _).trans (A_eq4 (V11 m ρ) c w))) (by decide +kernel)
theorem keep13 (c : Dev nD) : Agree kept (W13 m ρ c) (W12 m ρ c) := keptBy (by repeat constructor) (by decide +kernel) _
theorem keep14 (c : Dev nD) : Agree kept (W14 m ρ c) (W13 m ρ c) :=
  keptOf (W14_of_ne m ρ c) (fun w h => (W14_arr m ρ c w).trans
    (((dat5 (V13 m ρ) c).arrAt_in w h _).trans (A_eq5 (V13 m ρ) c w))) (by decide +kernel)
theorem keep15 (c : Dev nD) : Agree kept (W15 m ρ c) (W14 m ρ c) := keptBy (by repeat constructor) (by decide +kernel) _
theorem keep16 (c : Dev nD) : Agree kept (W16 m ρ c) (W15 m ρ c) :=
  keptOf (W16_of_ne m ρ c) (fun w h => (W16_arr m ρ c w).trans
    (((dat6 (V15 m ρ) c).arrAt_in w h _).trans (A_eq6 (V15 m ρ) c w))) (by decide +kernel)
theorem keep17 (c : Dev nD) : Agree kept (W17 m ρ c) (W16 m ρ c) := keptBy (by repeat constructor) (by decide +kernel) _
theorem keep18 (c : Dev nD) : Agree kept (W18 m ρ c) (W17 m ρ c) :=
  keptOf (W18_of_ne m ρ c) (fun w h => (W18_arr m ρ c w).trans
    (((dat7 (V17 m ρ) c).arrAt_in w h _).trans (A_eq7 (V17 m ρ) c w))) (by decide +kernel)
theorem keep19 (c : Dev nD) : Agree kept (W19 m ρ c) (W18 m ρ c) := keptBy (by repeat constructor) (by decide +kernel) _
theorem keep20 (c : Dev nD) : Agree kept (W20 m ρ c) (W19 m ρ c) :=
  keptOf (W20_of_ne m ρ c) (fun w h => (W20_arr m ρ c w).trans
    (((dat8 (V19 m ρ) c).arrAt_in w h _).trans (A_eq8 (V19 m ρ) c w))) (by decide +kernel)
theorem keep21 (c : Dev nD) : Agree kept (W21 m ρ c) (W20 m ρ c) := keptBy (by repeat constructor) (by decide +kernel) _
theorem keep22 (c : Dev nD) : Agree kept (W22 m ρ c) (W21 m ρ c) :=
  keptOf (W22_of_ne m ρ c) (fun w h => (W22_arr m ρ c w).trans
    (((dat9 (V21 m ρ) c).arrAt_in w h _).trans (A_eq9 (V21 m ρ) c w))) (by decide +kernel)
theorem keep23 (c : Dev nD) : Agree kept (W23 m ρ c) (W22 m ρ c) := keptBy (by repeat constructor) (by decide +kernel) _
theorem keep24 (c : Dev nD) : Agree kept (W24 m ρ c) (W23 m ρ c) :=
  keptOf (W24_of_ne m ρ c) (fun w h => (W24_arr m ρ c w).trans
    (((dat10 (V23 m ρ) c).arrAt_in w h _).trans (A_eq10 (V23 m ρ) c w))) (by decide +kernel)
theorem keep25 (c : Dev nD) : Agree kept (W25 m ρ c) (W24 m ρ c) := keptBy (by repeat constructor) (by decide +kernel) _
theorem keep26 (c : Dev nD) : Agree kept (W26 m ρ c) (W25 m ρ c) :=
  keptOf (W26_of_ne m ρ c) (fun w h => (W26_arr m ρ c w).trans
    (((dat11 (V25 m ρ) c).arrAt_in w h _).trans (A_eq11 (V25 m ρ) c w))) (by decide +kernel)
theorem keep27 (c : Dev nD) : Agree kept (W27 m ρ c) (W26 m ρ c) := keptBy (by repeat constructor) (by decide +kernel) _
theorem keep28 (c : Dev nD) : Agree kept (W28 m ρ c) (W27 m ρ c) :=
  keptOf (W28_of_ne m ρ c) (fun w h => (W28_arr m ρ c w).trans
    (((dat12 (V27 m ρ) c).arrAt_in w h _).trans (A_eq12 (V27 m ρ) c w))) (by decide +kernel)
theorem keep29 (c : Dev nD) : Agree kept (W29 m ρ c) (W28 m ρ c) := keptBy (by repeat constructor) (by decide +kernel) _
theorem keep30 (c : Dev nD) : Agree kept (W30 m ρ c) (W29 m ρ c) :=
  keptOf (W30_of_ne m ρ c) (fun w h => (W30_arr m ρ c w).trans
    (((dat13 (V29 m ρ) c).arrAt_in w h _).trans (A_eq13 (V29 m ρ) c w))) (by decide +kernel)
theorem keep31 (c : Dev nD) : Agree kept (W31 m ρ c) (W30 m ρ c) := keptBy (by repeat constructor) (by decide +kernel) _
theorem keep32 (c : Dev nD) : Agree kept (W32 m ρ c) (W31 m ρ c) :=
  keptOf (W32_of_ne m ρ c) (fun w h => (W32_arr m ρ c w).trans
    (((dat14 (V31 m ρ) c).arrAt_in w h _).trans (A_eq14 (V31 m ρ) c w))) (by decide +kernel)
theorem keep33 (c : Dev nD) : Agree kept (W33 m ρ c) (W32 m ρ c) := keptBy (by repeat constructor) (by decide +kernel) _
theorem keep34 (c : Dev nD) : Agree kept (W34 m ρ c) (W33 m ρ c) :=
  keptOf (W34_of_ne m ρ c) (fun w h => (W34_arr m ρ c w).trans
    (((dat15 (V33 m ρ) c).arrAt_in w h _).trans (A_eq15 (V33 m ρ) c w))) (by decide +kernel)

/-- A branch's first-layer activation, over the line that follows the region producing it. -/
theorem keepAct0 (c : Dev nD) : W7 m ρ c (Proc.devRef .tc main_v85) = W6 m ρ c (Proc.devRef .tc main_v85) :=
  kept1 (by repeat constructor) (by decide +kernel) _
theorem keepAct1 (c : Dev nD) : W15 m ρ c (Proc.devRef .tc main_v166) = W14 m ρ c (Proc.devRef .tc main_v166) :=
  kept1 (by repeat constructor) (by decide +kernel) _
theorem keepAct2 (c : Dev nD) : W23 m ρ c (Proc.devRef .tc main_v247) = W22 m ρ c (Proc.devRef .tc main_v247) :=
  kept1 (by repeat constructor) (by decide +kernel) _
theorem keepAct3 (c : Dev nD) : W31 m ρ c (Proc.devRef .tc main_v328) = W30 m ρ c (Proc.devRef .tc main_v328) :=
  kept1 (by repeat constructor) (by decide +kernel) _

/-- The running output, from the step that produces it to the entry of the region that reads it. -/
theorem keepOut0 (c : Dev nD) : W9 m ρ c (Proc.devRef .tc main_v45) = W3 m ρ c (Proc.devRef .tc main_v45) :=
  (kept1 (by repeat constructor) (by decide +kernel) _).trans <| (W8_of_ne m ρ c _ (by decide +kernel)).trans <|
  (kept1 (by repeat constructor) (by decide +kernel) _).trans <| (W6_of_ne m ρ c _ (by decide +kernel)).trans <|
  (kept1 (by repeat constructor) (by decide +kernel) _).trans <| W4_of_ne m ρ c _ (by decide +kernel)
theorem keepOut1 (c : Dev nD) : W17 m ρ c (Proc.devRef .tc main_v126) = W10 m ρ c (Proc.devRef .tc main_v126) :=
  (kept1 (by repeat constructor) (by decide +kernel) _).trans <| (W16_of_ne m ρ c _ (by decide +kernel)).trans <|
  (kept1 (by repeat constructor) (by decide +kernel) _).trans <| (W14_of_ne m ρ c _ (by decide +kernel)).trans <|
  (kept1 (by repeat constructor) (by decide +kernel) _).trans <| (W12_of_ne m ρ c _ (by decide +kernel)).trans <|
  kept1 (by repeat constructor) (by decide +kernel) _
theorem keepOut2 (c : Dev nD) : W25 m ρ c (Proc.devRef .tc main_v207) = W18 m ρ c (Proc.devRef .tc main_v207) :=
  (kept1 (by repeat constructor) (by decide +kernel) _).trans <| (W24_of_ne m ρ c _ (by decide +kernel)).trans <|
  (kept1 (by repeat constructor) (by decide +kernel) _).trans <| (W22_of_ne m ρ c _ (by decide +kernel)).trans <|
  (kept1 (by repeat constructor) (by decide +kernel) _).trans <| (W20_of_ne m ρ c _ (by decide +kernel)).trans <|
  kept1 (by repeat constructor) (by decide +kernel) _
theorem keepOut3 (c : Dev nD) : W33 m ρ c (Proc.devRef .tc main_v288) = W26 m ρ c (Proc.devRef .tc main_v288) :=
  (kept1 (by repeat constructor) (by decide +kernel) _).trans <| (W32_of_ne m ρ c _ (by decide +kernel)).trans <|
  (kept1 (by repeat constructor) (by decide +kernel) _).trans <| (W30_of_ne m ρ c _ (by decide +kernel)).trans <|
  (kept1 (by repeat constructor) (by decide +kernel) _).trans <| (W28_of_ne m ρ c _ (by decide +kernel)).trans <|
  kept1 (by repeat constructor) (by decide +kernel) _

end Cert.KernelIdeal.Keep

end
-- ==== Proof.Spec.lean ====
import proofs.«151858_j43868795961412_1_alg».proof.ReferenceIdeal
import Idealize.ShloMosaic.PureOps.Ideal

noncomputable section

namespace Cert.Gcn

open Idealize.ShloMosaic Cert.ReferenceIdeal
open Cert.ReferenceIdeal.Facts₀ Cert.ReferenceIdeal.Facts

variable [Cert.ReferenceIdeal.Facts]
variable {F : FTy → Type} [FloatOps F]

/-- x · w, contracted over the shared axis of extent 128. -/
def mm (x : Vec F S50000x128 .f32) (w : Vec F S128x128 .f32) : Vec F S50000x128 .f32 :=
  Host.dotGeneral dot_S50000x128_S128x128_S50000x128_1_0_0_1_n_n none x w

/-- The vector repeated along every row. -/
def rows (v : Vec F S128 .f32) : Vec F S50000x128 .f32 :=
  broadcastInDim S50000x128 ![0, 1] bcast_S1x128_S50000x128_0_1 (broadcastInDim S1x128 ![1] bcast_S128_S1x128_1 v)

/-- Per column y = (z − μ) · (σ² + ε)^(−1/2) · γ + β, then y where y > 0 and α · y elsewhere. -/
def bnAct (z : Vec F S50000x128 .f32) (mean var gamma beta : Vec F S128 .f32) (alpha : Vec F S_ .f32) : Vec F S50000x128 .f32 :=
  select
    (cmpf .ogt
      (addf (mulf (mulf (subf z (rows mean)) (rows (Host.rsqrt (addf var (broadcastInDim S128 ![] bcast_S_S128 (constant S_ .f32 0x3727C5AC#32)))))) (rows gamma)) (rows beta))
      (broadcastInDim S50000x128 ![] bcast_S_S50000x128 (constant S_ .f32 0x00000000#32)))
    (addf (mulf (mulf (subf z (rows mean)) (rows (Host.rsqrt (addf var (broadcastInDim S128 ![] bcast_S_S128 (constant S_ .f32 0x3727C5AC#32)))))) (rows gamma)) (rows beta))
    (mulf (broadcastInDim S50000x128 ![] bcast_S_S50000x128 alpha)
      (addf (mulf (mulf (subf z (rows mean)) (rows (Host.rsqrt (addf var (broadcastInDim S128 ![] bcast_S_S128 (constant S_ .f32 0x3727C5AC#32)))))) (rows gamma)) (rows beta)))

/-- o + mcol · a, the weight constant along each row. -/
def mixAdd (o : Vec F S50000x128 .f32) (mcol : Vec F S50000x1 .f32) (a : Vec F S50000x128 .f32) : Vec F S50000x128 .f32 :=
  addf o (mulf (broadcastInDim S50000x128 ![0, 1] bcast_S50000x1_S50000x128_0_1 mcol) a)

end Cert.Gcn

end
-- ==== Proof.RegMM.lean ====
import proofs.«151858_j43868795961412_1_alg».proof.Proof.FrameKI
import proofs.«151858_j43868795961412_1_alg».proof.Proof.Spec
import Idealize.ShloMosaic.Lib.StackMember

noncomputable section

namespace Cert.KernelIdeal.RegMM

open Idealize.ShloMosaic Idealize.ShloMosaic.TcCoe Idealize.ShloMosaic.ValueIdx Idealize.ShloMosaic.StackMember Idealize.SL.Sem
open Cert.KernelIdeal Cert.KernelIdeal.Gen Cert.KernelIdeal.GenP

variable [Cert.ReferenceIdeal.Facts]

/-- The dimension record of the whole product is the plain one, rows times columns. -/
theorem mm_apply (x : FVec Ideal S50000x128 .f32) (w : FVec Ideal S128x128 .f32) (r : Fin 50000) (q : Fin 128) :
    Cert.Gcn.mm (F := Ideal) x w (ix2 r q) = ∑ k : Fin 128, x (ix2 r k) * w (ix2 k q) :=
  dotGeneral_plain_apply none x w r q

/-- A product accumulated into zero is the plain product; narrowing and a reshape to the same shape change no ideal value. -/
theorem pay0_apply (x0 : FVec Ideal S5000x128 .f32) (x1 : FVec Ideal S128x128 .f32) (p : Fin 5000) (q : Fin 128) :
    k0_pay1 (F := Ideal) x0 x1 (ix2 p q) = ∑ k : Fin 128, x0 (ix2 p k) * x1 (ix2 k q) := by
  unfold k0_pay1
  rw [shapeCast_self]
  exact (congrFun (matmul_zero_eq_dotGeneral _ none _ _) _).trans (dotGeneral_plain_apply none _ _ p q)

theorem pay2_apply (x0 : FVec Ideal S5000x128 .f32) (x1 : FVec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self x0]
  exact pay0_apply x0 x1 p q

/-- Rows 5000·b … 5000·b + 4999 of the product are the product of those rows: entry by entry the same sum over k. -/
theorem block_eq {pay : FVec Ideal S5000x128 .f32 → FVec Ideal S128x128 .f32 → FVec Ideal S5000x128 .f32}
    (hpay : ∀ x0 x1 p q, pay x0 x1 (ix2 p q) = ∑ k : Fin 128, x0 (ix2 p k) * x1 (ix2 k q))
    (X : FVec Ideal S50000x128 .f32) (Wt : FVec Ideal S128x128 .f32)
    {e0 eo : S5000x128.Idx → S50000x128.Idx} {e1 : S128x128.Idx → S128x128.Idx} {i0 i1 io : Fin 2 → ℕ}
    (h0 : ∀ y a, (e0 y a).val = i0 a * S5000x128.size a + (y a).val)
    (h1 : ∀ y a, (e1 y a).val = i1 a * S128x128.size a + (y a).val)
    (ho : ∀ y a, (eo y a).val = io a * S5000x128.size a + (y a).val)
    (hi : i0 = io ∧ i1 = 0 ∧ io 1 = 0) :
    pay (fun y => X (e0 y)) (fun y => Wt (e1 y)) = fun j => Cert.Gcn.mm (F := Ideal) X Wt (eo j) := by
  obtain ⟨rfl, rfl, c⟩ := hi
  funext j
  obtain ⟨p, q, rfl⟩ : ∃ (p : Fin 5000) (q : Fin 128), j = ix2 p q := ⟨j 0, j 1, eq_ix2 j⟩
  have o1 : (eo (ix2 p q) 1).val = i0 1 * 128 + q.val := ho _ 1
  obtain ⟨r, o0, er⟩ : ∃ r : Fin 50000, r.val = i0 0 * 5000 + p.val ∧ eo (ix2 p q) = ix2 r q :=
    ⟨eo (ix2 p q) 0, ho _ 0, Shape.idx_ext₂ rfl (by show _ = q.val; omega)⟩
  rw [hpay, er, mm_apply]
  refine Finset.sum_congr rfl fun k _ => ?_
  have a0 : (e0 (ix2 p k) 0).val = i0 0 * 5000 + p.val := h0 _ 0
  have a1 : (e0 (ix2 p k) 1).val = i0 1 * 128 + k.val := h0 _ 1
  have b0 : (e1 (ix2 k q) 0).val = 0 * 128 + k.val := h1 _ 0
  have b1 : (e1 (ix2 k q) 1).val = 0 * 128 + q.val := h1 _ 1
  rw [show e0 (ix2 p k) = ix2 r k from Shape.idx_ext₂ (by show _ = r.val; omega) (by show _ = k.val; omega),
    show e1 (ix2 k q) = ix2 k q from Shape.idx_ext₂ (by show _ = k.val; omega) (by show _ = q.val; omega)]

/-- The left operand's and the output's block is one row block, the right operand's the whole array; every row block is some point's. -/
def Tiles {N : ℕ} (i0 i1 io : Fin N → Fin 2 → ℕ) : Prop :=
  (∀ t, i0 t = io t ∧ i1 t = 0 ∧ io t 1 = 0) ∧ ∀ b : Fin 10, ∃ t, io t = ![b.val, 0]

instance {N : ℕ} (i0 i1 io : Fin N → Fin 2 → ℕ) : Decidable (Tiles i0 i1 io) := by unfold Tiles; infer_instance

/-- Row r lies in row block r / 5000, so the ten blocks of rows cover the array. -/
theorem cover {N : ℕ} {io : Fin N → Fin 2 → ℕ} (h : ∀ b : Fin 10, ∃ t, io t = ![b.val, 0]) (i : S50000x128.Idx) :
    ∃ t, ∀ a : Fin 2, io t a * S5000x128.size a ≤ (i a).val ∧ (i a).val < io t a * S5000x128.size a + S5000x128.size a := by
  have hi0 : (i 0).val < 50000 := (i 0).isLt
  have hi1 : (i 1).val < 128 := (i 1).isLt
  obtain ⟨t, ht⟩ := h ⟨(i 0).val / 5000, by omega⟩
  have t0 : io t 0 = (i 0).val / 5000 := congrFun ht 0
  have t1 : io t 1 = 0 := congrFun ht 1
  refine ⟨t, Fin.forall_fin_two.mpr ⟨?_, ?_⟩⟩
  · show io t 0 * 5000 ≤ (i 0).val ∧ (i 0).val < io t 0 * 5000 + 5000; omega
  · show io t 1 * 128 ≤ (i 1).val ∧ (i 1).val < io t 1 * 128 + 128; omega

/-- One store of the whole block, computed from loads of the whole blocks, leaves the payload of the blocks. -/
theorem out_eq (pay : Vec Ideal S5000x128 .f32 → Vec Ideal S128x128 .f32 → Vec Ideal S5000x128 .f32) (x0 : Vec Ideal S5000x128 .f32) (x1 : Vec Ideal S128x128 .f32) :
    View.canon [⟨r0_0, pay (View.ld x0 r0_0) (View.ld x1 r0_1)⟩] = pay x0 x1 := by
  have hz : (![0, 0] : Fin 2 → ℕ) = fun _ => 0 := by decide
  rw [View.canon_unit_zero hz, View.ld_unit_zero hz, View.ld_unit_zero hz]

/-- An index within a rectangle's bounds on every axis is under the slice of the whole buffer by that rectangle. -/
theorem mem_block {κ : Kind} (b : Ref sig κ) {off size : Fin b.ty.shape.rank → ℕ} {inb} {i : b.ty.shape.Idx}
    (h : ∀ a, off a ≤ (i a).val ∧ (i a).val < off a + size a) : i ∈ ((View.whole b).slice (Rect.unit off size inb)).set := by
  rw [View.set_slice_whole, Rect.mem_set_unit]; exact h

section Region
variable (V : (c : Dev nD) → (b : Ref sig .tc) → Buf (Elt Ideal) ((c : Thread nD τ).loc b))

theorem tiles0 : Tiles win0_0.index win0_1.index win0_2.index := by decide +kernel

/-- After the region the output array is the product of the two operand arrays as the region found them. -/
theorem value0 (c : Dev nD) :
    (dat0 (F := Ideal) V c).arrAt 2 cfg0.N = Cert.Gcn.mm (F := Ideal) (V c main_arg0) (V c main_v47) :=
  (dat0 (F := Ideal) V c).arrAt_eq_of_cover 2 _
    (fun t _ => (after0_2 V c t).trans <| (out_eq _ _ _).trans <|
      block_eq pay0_apply (V c main_arg0) (V c main_v47) (win0_0.rect_emb_val t) (win0_1.rect_emb_val t) (win0_2.rect_emb_val t) (tiles0.1 t))
    fun i => (cover tiles0.2 i).imp fun t h => ⟨flush0_2 t, mem_block main_v48 h⟩

theorem tiles2 : Tiles win2_0.index win2_1.index win2_2.index := by decide +kernel

theorem value2 (c : Dev nD) :
    (dat2 (F := Ideal) V c).arrAt 2 cfg2.N = Cert.Gcn.mm (F := Ideal) (V c main_v85) (V c main_v87) :=
  (dat2 (F := Ideal) V c).arrAt_eq_of_cover 2 _
    (fun t _ => (after2_2 V c t).trans <| (out_eq _ _ _).trans <|
      block_eq pay2_apply (V c main_v85) (V c main_v87) (win2_0.rect_emb_val t) (win2_1.rect_emb_val t) (win2_2.rect_emb_val t) (tiles2.1 t))
    fun i => (cover tiles2.2 i).imp fun t h => ⟨flush2_2 t, mem_block main_v88 h⟩

theorem tiles4 : Tiles win4_0.index win4_1.index win4_2.index := by decide +kernel

theorem value4 (c : Dev nD) :
    (dat4 (F := Ideal) V c).arrAt 2 cfg4.N = Cert.Gcn.mm (F := Ideal) (V c main_arg0) (V c main_v128) :=
  (dat4 (F := Ideal) V c).arrAt_eq_of_cover 2 _
    (fun t _ => (after4_2 V c t).trans <| (out_eq _ _ _).trans <|
      block_eq pay0_apply (V c main_arg0) (V c main_v128) (win4_0.rect_emb_val t) (win4_1.rect_emb_val t) (win4_2.rect_emb_val t) (tiles4.1 t))
    fun i => (cover tiles4.2 i).imp fun t h => ⟨flush4_2 t, mem_block main_v129 h⟩

theorem tiles6 : Tiles win6_0.index win6_1.index win6_2.index := by decide +kernel

theorem value6 (c : Dev nD) :
    (dat6 (F := Ideal) V c).arrAt 2 cfg6.N = Cert.Gcn.mm (F := Ideal) (V c main_v166) (V c main_v168) :=
  (dat6 (F := Ideal) V c).arrAt_eq_of_cover 2 _
    (fun t _ => (after6_2 V c t).trans <| (out_eq _ _ _).trans <|
      block_eq pay2_apply (V c main_v166) (V c main_v168) (win6_0.rect_emb_val t) (win6_1.rect_emb_val t) (win6_2.rect_emb_val t) (tiles6.1 t))
    fun i => (cover tiles6.2 i).imp fun t h => ⟨flush6_2 t, mem_block main_v169 h⟩

theorem tiles8 : Tiles win8_0.index win8_1.index win8_2.index := by decide +kernel

theorem value8 (c : Dev nD) :
    (dat8 (F := Ideal) V c).arrAt 2 cfg8.N = Cert.Gcn.mm (F := Ideal) (V c main_arg0) (V c main_v209) :=
  (dat8 (F := Ideal) V c).arrAt_eq_of_cover 2 _
    (fun t _ => (after8_2 V c t).trans <| (out_eq _ _ _).trans <|
      block_eq pay0_apply (V c main_arg0) (V c main_v209) (win8_0.rect_emb_val t) (win8_1.rect_emb_val t) (win8_2.rect_emb_val t) (tiles8.1 t))
    fun i => (cover tiles8.2 i).imp fun t h => ⟨flush8_2 t, mem_block main_v210 h⟩

theorem tiles10 : Tiles win10_0.index win10_1.index win10_2.index := by decide +kernel

theorem value10 (c : Dev nD) :
    (dat10 (F := Ideal) V c).arrAt 2 cfg10.N = Cert.Gcn.mm (F := Ideal) (V c main_v247) (V c main_v249) :=
  (dat10 (F := Ideal) V c).arrAt_eq_of_cover 2 _
    (fun t _ => (after10_2 V c t).trans <| (out_eq _ _ _).trans <|
      block_eq pay2_apply (V c main_v247) (V c main_v249) (win10_0.rect_emb_val t) (win10_1.rect_emb_val t) (win10_2.rect_emb_val t) (tiles10.1 t))
    fun i => (cover tiles10.2 i).imp fun t h => ⟨flush10_2 t, mem_block main_v250 h⟩

theorem tiles12 : Tiles win12_0.index win12_1.index win12_2.index := by decide +kernel

theorem value12 (c : Dev nD) :
    (dat12 (F := Ideal) V c).arrAt 2 cfg12.N = Cert.Gcn.mm (F := Ideal) (V c main_arg0) (V c main_v290) :=
  (dat12 (F := Ideal) V c).arrAt_eq_of_cover 2 _
    (fun t _ => (after12_2 V c t).trans <| (out_eq _ _ _).trans <|
      block_eq pay0_apply (V c main_arg0) (V c main_v290) (win12_0.rect_emb_val t) (win12_1.rect_emb_val t) (win12_2.rect_emb_val t) (tiles12.1 t))
    fun i => (cover tiles12.2 i).imp fun t h => ⟨flush12_2 t, mem_block main_v291 h⟩

theorem tiles14 : Tiles win14_0.index win14_1.index win14_2.index := by decide +kernel

theorem value14 (c : Dev nD) :
    (dat14 (F := Ideal) V c).arrAt 2 cfg14.N = Cert.Gcn.mm (F := Ideal) (V c main_v328) (V c main_v330) :=
  (dat14 (F := Ideal) V c).arrAt_eq_of_cover 2 _
    (fun t _ => (after14_2 V c t).trans <| (out_eq _ _ _).trans <|
      block_eq pay2_apply (V c main_v328) (V c main_v330) (win14_0.rect_emb_val t) (win14_1.rect_emb_val t) (win14_2.rect_emb_val t) (tiles14.1 t))
    fun i => (cover tiles14.2 i).imp fun t h => ⟨flush14_2 t, mem_block main_v331 h⟩

end Region

end Cert.KernelIdeal.RegMM

end
-- ==== Proof.RegBN.lean ====
import proofs.«151858_j43868795961412_1_alg».proof.Proof.FrameKI
import proofs.«151858_j43868795961412_1_alg».proof.Proof.Spec
import Idealize.ShloMosaic.PureOps.Ideal
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value

noncomputable section

namespace Cert.KernelIdeal.RegBN

open Idealize.ShloMosaic Idealize.ShloMosaic.TcCoe Idealize.SL.Sem
open Idealize.ShloMosaic.Pipeline (Dat)
open Cert.KernelIdeal Cert.KernelIdeal.Gen Cert.KernelIdeal.GenP Idealize.ShloMosaic.ValueIdx

/-- The normalised entry (z − μ)·(v + ε)^(−1/2)·γ + β. -/
def lin (z μ v γ β : Ideal .f32) : Ideal .f32 :=
  FloatOps.addf (FloatOps.mulf (FloatOps.mulf (FloatOps.subf z μ) (Ideal.rsqrt (FloatOps.addf v (FloatOps.ofBits .f32 0x3727C5AC#32)))) γ) β

/-- The rectified entry: y where y > 0 and α·y elsewhere, y the normalised entry. -/
def cell (z μ v γ β α : Ideal .f32) : Ideal .f32 :=
  Scalar.select (FloatOps.cmpf .ogt (lin z μ v γ β) (FloatOps.ofBits .f32 0x00000000#32)) (lin z μ v γ β) (FloatOps.mulf α (lin z μ v γ β))

theorem hz : (![0, 0] : Fin 2 → ℕ) = fun _ => 0 := funext fun a => by fin_cases a <;> rfl

/-- One piece over the whole block is the block. -/
theorem out_eq (x0 : Vec Ideal S5000x128 .f32) (x1 x2 x3 x4 x5 : Vec Ideal S1x128 .f32) :
    out1_6 x0 x1 x2 x3 x4 x5 = k1_pay1 x0 x2 x1 x3 x4 x5 := by
  unfold out1_6
  rw [View.canon_unit_zero hz]
  simp only [View.ld_unit_zero (S := S5000x128) hz, View.ld_unit_zero (S := S1x128) hz]

theorem mixOut_eq (x0 : Vec Ideal S5000x128 .f32) (x1 x2 x3 x4 x5 : Vec Ideal S1x128 .f32) (x6 : Vec Ideal S5000x1 .f32)
    (x7 : Vec Ideal S5000x128 .f32) : out3_8 x0 x1 x2 x3 x4 x5 x6 x7 = k3_pay1 x0 x2 x1 x3 x4 x5 x7 x6 := by
  unfold out3_8
  rw [View.canon_unit_zero hz]
  simp only [View.ld_unit_zero (S := S5000x128) hz, View.ld_unit_zero (S := S1x128) hz, View.ld_unit_zero (S := S5000x1) hz]

theorem col_apply {α : Type} (x : S5000x1.Idx → α) (h : S5000x1.Broadcasts S5000x128) (p : Fin 5000) (q : Fin 128) :
    broadcastTo S5000x128 x h (ix2 p q) = x (ix2 p (0 : Fin 1)) :=
  broadcastTo_apply x h (ix2 p q) (ix2 p (0 : Fin 1)) fun a => by match a with | ⟨0, _⟩ => rfl | ⟨1, _⟩ => rfl

/-- Every operation acts entry by entry, and a one-row operand is read at its column. -/
theorem pay_apply (x0 : Vec Ideal S5000x128 .f32) (xv xm xg xb xa : Vec Ideal S1x128 .f32) (p : Fin 5000) (q : Fin 128) :
    k1_pay1 (F := Ideal) x0 xv xm xg xb xa (ix2 p q)
      = cell (x0 (ix2 p q)) (xm (ix2 (0 : Fin 1) q)) (xv (ix2 (0 : Fin 1) q)) (xg (ix2 (0 : Fin 1) q))
          (xb (ix2 (0 : Fin 1) q)) (xa (ix2 (0 : Fin 1) q)) := by
  unfold k1_pay1
  simp only [shapeCast_self, select, cmpf, mulf, addf, subf, rsqrt, broadcast, broadcastTo_1b_ab_apply, cell, lin,
    Ideal.rsqrt_def]

/-- The running entry plus the column operand at its row times the rectified entry. -/
theorem mixPay_apply (x0 : FVec Ideal S5000x128 .f32) (xv xm xg xb xa : FVec Ideal S1x128 .f32) (xo : FVec Ideal S5000x128 .f32)
    (xc : FVec Ideal S5000x1 .f32) (p : Fin 5000) (q : Fin 128) :
    k3_pay1 (F := Ideal) x0 xv xm xg xb xa xo xc (ix2 p q)
      = FloatOps.addf (xo (ix2 p q)) (FloatOps.mulf (xc (ix2 p (0 : Fin 1)))
          (cell (x0 (ix2 p q)) (xm (ix2 (0 : Fin 1) q)) (xv (ix2 (0 : Fin 1) q)) (xg (ix2 (0 : Fin 1) q))
            (xb (ix2 (0 : Fin 1) q)) (xa (ix2 (0 : Fin 1) q)))) := by
  unfold k3_pay1
  simp only [shapeCast_self, select, cmpf, mulf, addf, subf, rsqrt, broadcast, broadcastTo_1b_ab_apply, col_apply, cell, lin,
    Ideal.rsqrt_def]

/-- A block's embedding into its array: on each axis the block index times the block size plus the coordinate. -/
abbrev Emb {m n M N : ℕ} (e : (⟨2, ![m, n]⟩ : Shape).Idx → (⟨2, ![M, N]⟩ : Shape).Idx) (idx : Fin 2 → ℕ) : Prop :=
  ∀ y a, (e y a : ℕ) = idx a * (![m, n] a) + y a

/-- Block row `k` of the one column block. -/
abbrev RowBlock (idx : Fin 2 → ℕ) (k : ℕ) : Prop := idx 0 = k ∧ idx 1 = 0

/-- Entry (p, q) of block row `k` is the array's entry (k·m + p, q). -/
theorem emb_eq {m n M : ℕ} {e : (⟨2, ![m, n]⟩ : Shape).Idx → (⟨2, ![M, n]⟩ : Shape).Idx} {idx : Fin 2 → ℕ} {k : ℕ}
    (he : Emb e idx) (hi : RowBlock idx k) (p : Fin m) (q : Fin n) (r : Fin M) (hr : r.val = k * m + p.val) :
    e (ix2 p q) = ix2 r q :=
  Shape.idx_ext₂ (by rw [he, hi.1]; exact hr.symm) (by rw [he, hi.2]; exact (Nat.zero_mul n).symm ▸ Nat.zero_add _)

/-- Two functions agree at a block entry and where it sits once they agree at (p, q) and (k·5000 + p, q). -/
theorem block_ext {α : Type} {e : S5000x128.Idx → S50000x128.Idx} {idx : Fin 2 → ℕ} {k : ℕ} (he : Emb e idx) (hi : RowBlock idx k)
    (hk : k < 10) {f : S5000x128.Idx → α} {g : S50000x128.Idx → α}
    (H : ∀ (p : Fin 5000) (q : Fin 128) (r : Fin 50000), r.val = k * 5000 + p.val → f (ix2 p q) = g (ix2 r q)) (j : S5000x128.Idx) :
    f j = g (e j) := by
  obtain ⟨p, q, rfl⟩ : ∃ (p : Fin 5000) (q : Fin 128), j = ix2 p q := ⟨j 0, j 1, eq_ix2 j⟩
  obtain ⟨r, hr⟩ : ∃ r : Fin 50000, r.val = k * 5000 + p.val := ⟨⟨_, by omega⟩, rfl⟩
  rw [emb_eq he hi p q r hr]
  exact H p q r hr

/-- Every index map of the eight regions is one of two functions of the grid point: t ↦ (t, 0) or t ↦ (0, 0). -/
theorem idx : ∀ t : Fin grid1.N, RowBlock (win1_0.index t) t.val ∧ RowBlock (win1_1.index t) 0 := by decide +kernel

/-- Row `r` of the array lies in the block of point `r / 5000`. -/
theorem cover {N : ℕ} (hN : N = 10) {ir iz : Fin N → Fin 2 → ℕ} (hi : ∀ t : Fin N, RowBlock (ir t) t.val ∧ RowBlock (iz t) 0)
    {e : Fin N → S5000x128.Idx → S50000x128.Idx} (he : ∀ t, Emb (e t) (ir t)) {flush : Fin N → Bool} (hf : ∀ t, flush t = true)
    {S : Fin N → Finset S50000x128.Idx} (hS : ∀ t y, e t y ∈ S t) (i : S50000x128.Idx) : ∃ t, flush t = true ∧ i ∈ S t := by
  obtain ⟨r, q, rfl⟩ : ∃ (r : Fin 50000) (q : Fin 128), i = ix2 r q := ⟨i 0, i 1, eq_ix2 i⟩
  obtain ⟨t, ht⟩ : ∃ t : Fin N, r.val = t.val * 5000 + r.val % 5000 := ⟨⟨r.val / 5000, by omega⟩, (Nat.div_add_mod' _ _).symm⟩
  refine ⟨t, hf t, ?_⟩
  rw [← emb_eq (he t) (hi t).1 ⟨_, Nat.mod_lt _ (by decide)⟩ q r ht]
  exact hS t _

section Block
variable [Cert.ReferenceIdeal.Facts]

theorem rows_apply (v : Vec Ideal Cert.ReferenceIdeal.S128 .f32) (r : Fin 50000) (q : Fin 128) :
    Cert.Gcn.rows (F := Ideal) v (ix2 r q) = v (ix1 q) := by
  unfold Cert.Gcn.rows
  rw [broadcastInDim_oneRow_apply]
  exact broadcastInDim_apply _ _ v (ix2 (0 : Fin 1) q) (ix1 q) fun a => match a with | ⟨0, _⟩ => rfl

/-- Both reciprocal square roots are one function on the extended reals. -/
theorem bnAct_apply (z : Vec Ideal Cert.ReferenceIdeal.S50000x128 .f32) (mean var gamma beta : Vec Ideal Cert.ReferenceIdeal.S128 .f32)
    (alpha : Vec Ideal Cert.ReferenceIdeal.S_ .f32) (r : Fin 50000) (q : Fin 128) :
    Cert.Gcn.bnAct (F := Ideal) z mean var gamma beta alpha (ix2 r q)
      = cell (z (ix2 r q)) (mean (ix1 q)) (var (ix1 q)) (gamma (ix1 q)) (beta (ix1 q)) (alpha ix0) := by
  unfold Cert.Gcn.bnAct
  simp only [select, cmpf, mulf, addf, subf, Host.rsqrt, rows_apply]
  rw [broadcastInDim_scalar_apply, broadcastInDim_scalar_apply, broadcastInDim_scalar_apply]
  simp only [constant, cell, lin, Ideal.hostUnary_rsqrt_def]

theorem mixAdd_apply (o a : FVec Ideal Cert.ReferenceIdeal.S50000x128 .f32) (mcol : FVec Ideal Cert.ReferenceIdeal.S50000x1 .f32)
    (r : Fin 50000) (q : Fin 128) :
    Cert.Gcn.mixAdd (F := Ideal) o mcol a (ix2 r q)
      = FloatOps.addf (o (ix2 r q)) (FloatOps.mulf (mcol (ix2 r (0 : Fin 1))) (a (ix2 r q))) :=
  congrArg (fun u => FloatOps.addf (o (ix2 r q)) (FloatOps.mulf u (a (ix2 r q))))
    (broadcastInDim_apply _ _ mcol (ix2 r q) (ix2 r (0 : Fin 1)) fun a => by match a with | ⟨0, _⟩ => rfl | ⟨1, _⟩ => rfl)

variable {e0 e6 e7 : S5000x128.Idx → S50000x128.Idx} {e1 e2 e3 e4 e5 : S1x128.Idx → S1x128.Idx} {ec : S5000x1.Idx → S50000x1.Idx}
  {ir iz : Fin 2 → ℕ} {k : ℕ} (hi : RowBlock ir k ∧ RowBlock iz 0)
  (h0 : Emb e0 ir) (h1 : Emb e1 iz) (h2 : Emb e2 iz) (h3 : Emb e3 iz) (h4 : Emb e4 iz) (h5 : Emb e5 iz)
  (z : Vec Ideal S50000x128 .f32) {a1 a2 a3 a4 a5 : Vec Ideal S1x128 .f32}
  {mean var gamma beta : Vec Ideal Cert.ReferenceIdeal.S128 .f32} {alpha : Vec Ideal Cert.ReferenceIdeal.S_ .f32}
  (hmean : ∀ q : Fin 128, a1 (ix2 (0 : Fin 1) q) = mean (ix1 q)) (hvar : ∀ q : Fin 128, a2 (ix2 (0 : Fin 1) q) = var (ix1 q))
  (hgamma : ∀ q : Fin 128, a3 (ix2 (0 : Fin 1) q) = gamma (ix1 q)) (hbeta : ∀ q : Fin 128, a4 (ix2 (0 : Fin 1) q) = beta (ix1 q))
  (halpha : ∀ q : Fin 128, a5 (ix2 (0 : Fin 1) q) = alpha ix0)
include hi h0 h1 h2 h3 h4 h5 hmean hvar hgamma hbeta halpha

/-- A block entry whose six operands sit at row `r`, column `q` of their arrays is the whole-array function there. -/
theorem cell_eq (p : Fin 5000) (q : Fin 128) (r : Fin 50000) (hr : r.val = k * 5000 + p.val) :
    cell (z (e0 (ix2 p q))) (a1 (e1 (ix2 (0 : Fin 1) q))) (a2 (e2 (ix2 (0 : Fin 1) q))) (a3 (e3 (ix2 (0 : Fin 1) q)))
        (a4 (e4 (ix2 (0 : Fin 1) q))) (a5 (e5 (ix2 (0 : Fin 1) q)))
      = Cert.Gcn.bnAct (F := Ideal) z mean var gamma beta alpha (ix2 r q) := by
  rw [bnAct_apply, emb_eq h0 hi.1 p q r hr, emb_eq h1 hi.2 0 q 0 rfl, emb_eq h2 hi.2 0 q 0 rfl, emb_eq h3 hi.2 0 q 0 rfl,
    emb_eq h4 hi.2 0 q 0 rfl, emb_eq h5 hi.2 0 q 0 rfl, hmean, hvar, hgamma, hbeta, halpha]

/-- What a grid point of a normalise-and-rectify region leaves is its block of the whole-array function. -/
theorem bn_block (h6 : Emb e6 ir) (hk : k < 10) :
    out1_6 (fun y => z (e0 y)) (fun y => a1 (e1 y)) (fun y => a2 (e2 y)) (fun y => a3 (e3 y)) (fun y => a4 (e4 y)) (fun y => a5 (e5 y))
      = fun j => Cert.Gcn.bnAct (F := Ideal) z mean var gamma beta alpha (e6 j) :=
  (out_eq _ _ _ _ _ _).trans <| funext <| block_ext h6 hi.1 hk fun p q r hr =>
    (pay_apply _ _ _ _ _ _ p q).trans (cell_eq hi h0 h1 h2 h3 h4 h5 z hmean hvar hgamma hbeta halpha p q r hr)

/-- So is what a grid point of a region that also weighs and accumulates leaves. -/
theorem mix_block (hc : Emb ec ir) (h7 : Emb e7 ir) (h6 : Emb e6 ir) (o : Vec Ideal S50000x128 .f32) (mcol : Vec Ideal S50000x1 .f32)
    (hk : k < 10) :
    out3_8 (fun y => z (e0 y)) (fun y => a1 (e1 y)) (fun y => a2 (e2 y)) (fun y => a3 (e3 y)) (fun y => a4 (e4 y)) (fun y => a5 (e5 y))
        (fun y => mcol (ec y)) (fun y => o (e7 y))
      = fun j => Cert.Gcn.mixAdd (F := Ideal) o mcol (Cert.Gcn.bnAct (F := Ideal) z mean var gamma beta alpha) (e6 j) :=
  (mixOut_eq _ _ _ _ _ _ _ _).trans <| funext <| block_ext h6 hi.1 hk fun p q r hr => by
    rw [mixPay_apply, mixAdd_apply, cell_eq hi h0 h1 h2 h3 h4 h5 z hmean hvar hgamma hbeta halpha p q r hr,
      emb_eq h7 hi.1 p q r hr, emb_eq hc hi.1 p 0 r hr]

end Block

variable (V : (c : Dev nD) → (b : Ref sig .tc) → Buf (Elt Ideal) ((c : Thread nD τ).loc b)) [Cert.ReferenceIdeal.Facts]

theorem value1 (c : Dev nD) (mean var gamma beta : Vec Ideal Cert.ReferenceIdeal.S128 .f32) (alpha : Vec Ideal Cert.ReferenceIdeal.S_ .f32)
    (hmean : ∀ q : Fin 128, (V c main_v77 : Vec Ideal S1x128 .f32) (ix2 (0 : Fin 1) q) = mean (ix1 q))
    (hvar : ∀ q : Fin 128, (V c main_v78 : Vec Ideal S1x128 .f32) (ix2 (0 : Fin 1) q) = var (ix1 q))
    (hgamma : ∀ q : Fin 128, (V c main_v81 : Vec Ideal S1x128 .f32) (ix2 (0 : Fin 1) q) = gamma (ix1 q))
    (hbeta : ∀ q : Fin 128, (V c main_v84 : Vec Ideal S1x128 .f32) (ix2 (0 : Fin 1) q) = beta (ix1 q))
    (halpha : ∀ q : Fin 128, (V c main_v44 : Vec Ideal S1x128 .f32) (ix2 (0 : Fin 1) q) = alpha ix0) :
    (dat1 (F := Ideal) V c).arrAt 6 cfg1.N = Cert.Gcn.bnAct (F := Ideal) (V c main_v66) mean var gamma beta alpha :=
  (dat1 V c).arrAt_eq_of_cover 6 _
    (fun t _ => by
      rw [Dat.flushed, after1_6]
      exact (bn_block (idx t) (win1_0.rect_emb_val t) (win1_1.rect_emb_val t) (win1_2.rect_emb_val t)
        (win1_3.rect_emb_val t) (win1_4.rect_emb_val t) (win1_5.rect_emb_val t) (V c main_v66)
        hmean hvar hgamma hbeta halpha (win1_6.rect_emb_val t) (t.isLt.trans_eq N_1) :))
    (cover N_1 idx win1_6.rect_emb_val flush1_6 fun t => ((cfg1.win 6).blk t).view.emb_mem_set)

theorem value5 (c : Dev nD) (mean var gamma beta : Vec Ideal Cert.ReferenceIdeal.S128 .f32) (alpha : Vec Ideal Cert.ReferenceIdeal.S_ .f32)
    (hmean : ∀ q : Fin 128, (V c main_v158 : Vec Ideal S1x128 .f32) (ix2 (0 : Fin 1) q) = mean (ix1 q))
    (hvar : ∀ q : Fin 128, (V c main_v159 : Vec Ideal S1x128 .f32) (ix2 (0 : Fin 1) q) = var (ix1 q))
    (hgamma : ∀ q : Fin 128, (V c main_v162 : Vec Ideal S1x128 .f32) (ix2 (0 : Fin 1) q) = gamma (ix1 q))
    (hbeta : ∀ q : Fin 128, (V c main_v165 : Vec Ideal S1x128 .f32) (ix2 (0 : Fin 1) q) = beta (ix1 q))
    (halpha : ∀ q : Fin 128, (V c main_v44 : Vec Ideal S1x128 .f32) (ix2 (0 : Fin 1) q) = alpha ix0) :
    (dat5 (F := Ideal) V c).arrAt 6 cfg5.N = Cert.Gcn.bnAct (F := Ideal) (V c main_v147) mean var gamma beta alpha :=
  (dat5 V c).arrAt_eq_of_cover 6 _
    (fun t _ => by
      rw [Dat.flushed, after5_6]
      exact (bn_block (idx t) (win5_0.rect_emb_val t) (win5_1.rect_emb_val t) (win5_2.rect_emb_val t)
        (win5_3.rect_emb_val t) (win5_4.rect_emb_val t) (win5_5.rect_emb_val t) (V c main_v147)
        hmean hvar hgamma hbeta halpha (win5_6.rect_emb_val t) (t.isLt.trans_eq N_5) :))
    (cover N_5 idx win5_6.rect_emb_val flush5_6 fun t => ((cfg5.win 6).blk t).view.emb_mem_set)

theorem value9 (c : Dev nD) (mean var gamma beta : Vec Ideal Cert.ReferenceIdeal.S128 .f32) (alpha : Vec Ideal Cert.ReferenceIdeal.S_ .f32)
    (hmean : ∀ q : Fin 128, (V c main_v239 : Vec Ideal S1x128 .f32) (ix2 (0 : Fin 1) q) = mean (ix1 q))
    (hvar : ∀ q : Fin 128, (V c main_v240 : Vec Ideal S1x128 .f32) (ix2 (0 : Fin 1) q) = var (ix1 q))
    (hgamma : ∀ q : Fin 128, (V c main_v243 : Vec Ideal S1x128 .f32) (ix2 (0 : Fin 1) q) = gamma (ix1 q))
    (hbeta : ∀ q : Fin 128, (V c main_v246 : Vec Ideal S1x128 .f32) (ix2 (0 : Fin 1) q) = beta (ix1 q))
    (halpha : ∀ q : Fin 128, (V c main_v44 : Vec Ideal S1x128 .f32) (ix2 (0 : Fin 1) q) = alpha ix0) :
    (dat9 (F := Ideal) V c).arrAt 6 cfg9.N = Cert.Gcn.bnAct (F := Ideal) (V c main_v228) mean var gamma beta alpha :=
  (dat9 V c).arrAt_eq_of_cover 6 _
    (fun t _ => by
      rw [Dat.flushed, after9_6]
      exact (bn_block (idx t) (win9_0.rect_emb_val t) (win9_1.rect_emb_val t) (win9_2.rect_emb_val t)
        (win9_3.rect_emb_val t) (win9_4.rect_emb_val t) (win9_5.rect_emb_val t) (V c main_v228)
        hmean hvar hgamma hbeta halpha (win9_6.rect_emb_val t) (t.isLt.trans_eq N_9) :))
    (cover N_9 idx win9_6.rect_emb_val flush9_6 fun t => ((cfg9.win 6).blk t).view.emb_mem_set)

theorem value13 (c : Dev nD) (mean var gamma beta : Vec Ideal Cert.ReferenceIdeal.S128 .f32) (alpha : Vec Ideal Cert.ReferenceIdeal.S_ .f32)
    (hmean : ∀ q : Fin 128, (V c main_v320 : Vec Ideal S1x128 .f32) (ix2 (0 : Fin 1) q) = mean (ix1 q))
    (hvar : ∀ q : Fin 128, (V c main_v321 : Vec Ideal S1x128 .f32) (ix2 (0 : Fin 1) q) = var (ix1 q))
    (hgamma : ∀ q : Fin 128, (V c main_v324 : Vec Ideal S1x128 .f32) (ix2 (0 : Fin 1) q) = gamma (ix1 q))
    (hbeta : ∀ q : Fin 128, (V c main_v327 : Vec Ideal S1x128 .f32) (ix2 (0 : Fin 1) q) = beta (ix1 q))
    (halpha : ∀ q : Fin 128, (V c main_v44 : Vec Ideal S1x128 .f32) (ix2 (0 : Fin 1) q) = alpha ix0) :
    (dat13 (F := Ideal) V c).arrAt 6 cfg13.N = Cert.Gcn.bnAct (F := Ideal) (V c main_v309) mean var gamma beta alpha :=
  (dat13 V c).arrAt_eq_of_cover 6 _
    (fun t _ => by
      rw [Dat.flushed, after13_6]
      exact (bn_block (idx t) (win13_0.rect_emb_val t) (win13_1.rect_emb_val t) (win13_2.rect_emb_val t)
        (win13_3.rect_emb_val t) (win13_4.rect_emb_val t) (win13_5.rect_emb_val t) (V c main_v309)
        hmean hvar hgamma hbeta halpha (win13_6.rect_emb_val t) (t.isLt.trans_eq N_13) :))
    (cover N_13 idx win13_6.rect_emb_val flush13_6 fun t => ((cfg13.win 6).blk t).view.emb_mem_set)

end Cert.KernelIdeal.RegBN

namespace Cert.KernelIdeal.RegMix

open Idealize.ShloMosaic Idealize.ShloMosaic.TcCoe Idealize.SL.Sem
open Idealize.ShloMosaic.Pipeline (Dat)
open Cert.KernelIdeal Cert.KernelIdeal.Gen Cert.KernelIdeal.GenP Idealize.ShloMosaic.ValueIdx Cert.KernelIdeal.RegBN

variable [Cert.ReferenceIdeal.Facts]

theorem value3 (V : (c : Dev nD) → (b : Ref sig .tc) → Buf (Elt Ideal) ((c : Thread nD τ).loc b)) (c : Dev nD)
    (mean var gamma beta : Vec Ideal S128 .f32) (alpha : Vec Ideal S_ .f32)
    (hmean : ∀ q : Fin 128, (V c main_v117 : Vec Ideal S1x128 .f32) (ix2 (0 : Fin 1) q) = mean (ix1 q))
    (hvar : ∀ q : Fin 128, (V c main_v118 : Vec Ideal S1x128 .f32) (ix2 (0 : Fin 1) q) = var (ix1 q))
    (hgamma : ∀ q : Fin 128, (V c main_v121 : Vec Ideal S1x128 .f32) (ix2 (0 : Fin 1) q) = gamma (ix1 q))
    (hbeta : ∀ q : Fin 128, (V c main_v124 : Vec Ideal S1x128 .f32) (ix2 (0 : Fin 1) q) = beta (ix1 q))
    (halpha : ∀ q : Fin 128, (V c main_v44 : Vec Ideal S1x128 .f32) (ix2 (0 : Fin 1) q) = alpha ix0) :
    (dat3 (F := Ideal) V c).arrAt 8 cfg3.N
      = Cert.Gcn.mixAdd (F := Ideal) (V c main_v45) (V c main_v125)
          (Cert.Gcn.bnAct (F := Ideal) (V c main_v106) mean var gamma beta alpha) :=
  (dat3 (F := Ideal) V c).arrAt_eq_of_cover 8 _
    (fun t _ => by
      rw [Dat.flushed, after3_8]
      exact (mix_block (idx t) (win3_0.rect_emb_val t) (win3_1.rect_emb_val t) (win3_2.rect_emb_val t)
        (win3_3.rect_emb_val t) (win3_4.rect_emb_val t) (win3_5.rect_emb_val t) (V c main_v106)
        hmean hvar hgamma hbeta halpha (win3_6.rect_emb_val t) (win3_7.rect_emb_val t) (win3_8.rect_emb_val t)
        (V c main_v45) (V c main_v125) (t.isLt.trans_eq N_3) :))
    (cover N_3 idx win3_8.rect_emb_val flush3_8 fun t => ((cfg3.win 8).blk t).view.emb_mem_set)

theorem value7 (V : (c : Dev nD) → (b : Ref sig .tc) → Buf (Elt Ideal) ((c : Thread nD τ).loc b)) (c : Dev nD)
    (mean var gamma beta : Vec Ideal S128 .f32) (alpha : Vec Ideal S_ .f32)
    (hmean : ∀ q : Fin 128, (V c main_v198 : Vec Ideal S1x128 .f32) (ix2 (0 : Fin 1) q) = mean (ix1 q))
    (hvar : ∀ q : Fin 128, (V c main_v199 : Vec Ideal S1x128 .f32) (ix2 (0 : Fin 1) q) = var (ix1 q))
    (hgamma : ∀ q : Fin 128, (V c main_v202 : Vec Ideal S1x128 .f32) (ix2 (0 : Fin 1) q) = gamma (ix1 q))
    (hbeta : ∀ q : Fin 128, (V c main_v205 : Vec Ideal S1x128 .f32) (ix2 (0 : Fin 1) q) = beta (ix1 q))
    (halpha : ∀ q : Fin 128, (V c main_v44 : Vec Ideal S1x128 .f32) (ix2 (0 : Fin 1) q) = alpha ix0) :
    (dat7 (F := Ideal) V c).arrAt 8 cfg7.N
      = Cert.Gcn.mixAdd (F := Ideal) (V c main_v126) (V c main_v206)
          (Cert.Gcn.bnAct (F := Ideal) (V c main_v187) mean var gamma beta alpha) :=
  (dat7 (F := Ideal) V c).arrAt_eq_of_cover 8 _
    (fun t _ => by
      rw [Dat.flushed, after7_8]
      exact (mix_block (idx t) (win7_0.rect_emb_val t) (win7_1.rect_emb_val t) (win7_2.rect_emb_val t)
        (win7_3.rect_emb_val t) (win7_4.rect_emb_val t) (win7_5.rect_emb_val t) (V c main_v187)
        hmean hvar hgamma hbeta halpha (win7_6.rect_emb_val t) (win7_7.rect_emb_val t) (win7_8.rect_emb_val t)
        (V c main_v126) (V c main_v206) (t.isLt.trans_eq N_7) :))
    (cover N_7 idx win7_8.rect_emb_val flush7_8 fun t => ((cfg7.win 8).blk t).view.emb_mem_set)

theorem value11 (V : (c : Dev nD) → (b : Ref sig .tc) → Buf (Elt Ideal) ((c : Thread nD τ).loc b)) (c : Dev nD)
    (mean var gamma beta : Vec Ideal S128 .f32) (alpha : Vec Ideal S_ .f32)
    (hmean : ∀ q : Fin 128, (V c main_v279 : Vec Ideal S1x128 .f32) (ix2 (0 : Fin 1) q) = mean (ix1 q))
    (hvar : ∀ q : Fin 128, (V c main_v280 : Vec Ideal S1x128 .f32) (ix2 (0 : Fin 1) q) = var (ix1 q))
    (hgamma : ∀ q : Fin 128, (V c main_v283 : Vec Ideal S1x128 .f32) (ix2 (0 : Fin 1) q) = gamma (ix1 q))
    (hbeta : ∀ q : Fin 128, (V c main_v286 : Vec Ideal S1x128 .f32) (ix2 (0 : Fin 1) q) = beta (ix1 q))
    (halpha : ∀ q : Fin 128, (V c main_v44 : Vec Ideal S1x128 .f32) (ix2 (0 : Fin 1) q) = alpha ix0) :
    (dat11 (F := Ideal) V c).arrAt 8 cfg11.N
      = Cert.Gcn.mixAdd (F := Ideal) (V c main_v207) (V c main_v287)
          (Cert.Gcn.bnAct (F := Ideal) (V c main_v268) mean var gamma beta alpha) :=
  (dat11 (F := Ideal) V c).arrAt_eq_of_cover 8 _
    (fun t _ => by
      rw [Dat.flushed, after11_8]
      exact (mix_block (idx t) (win11_0.rect_emb_val t) (win11_1.rect_emb_val t) (win11_2.rect_emb_val t)
        (win11_3.rect_emb_val t) (win11_4.rect_emb_val t) (win11_5.rect_emb_val t) (V c main_v268)
        hmean hvar hgamma hbeta halpha (win11_6.rect_emb_val t) (win11_7.rect_emb_val t) (win11_8.rect_emb_val t)
        (V c main_v207) (V c main_v287) (t.isLt.trans_eq N_11) :))
    (cover N_11 idx win11_8.rect_emb_val flush11_8 fun t => ((cfg11.win 8).blk t).view.emb_mem_set)

theorem value15 (V : (c : Dev nD) → (b : Ref sig .tc) → Buf (Elt Ideal) ((c : Thread nD τ).loc b)) (c : Dev nD)
    (mean var gamma beta : Vec Ideal S128 .f32) (alpha : Vec Ideal S_ .f32)
    (hmean : ∀ q : Fin 128, (V c main_v360 : Vec Ideal S1x128 .f32) (ix2 (0 : Fin 1) q) = mean (ix1 q))
    (hvar : ∀ q : Fin 128, (V c main_v361 : Vec Ideal S1x128 .f32) (ix2 (0 : Fin 1) q) = var (ix1 q))
    (hgamma : ∀ q : Fin 128, (V c main_v364 : Vec Ideal S1x128 .f32) (ix2 (0 : Fin 1) q) = gamma (ix1 q))
    (hbeta : ∀ q : Fin 128, (V c main_v367 : Vec Ideal S1x128 .f32) (ix2 (0 : Fin 1) q) = beta (ix1 q))
    (halpha : ∀ q : Fin 128, (V c main_v44 : Vec Ideal S1x128 .f32) (ix2 (0 : Fin 1) q) = alpha ix0) :
    (dat15 (F := Ideal) V c).arrAt 8 cfg15.N
      = Cert.Gcn.mixAdd (F := Ideal) (V c main_v288) (V c main_v368)
          (Cert.Gcn.bnAct (F := Ideal) (V c main_v349) mean var gamma beta alpha) :=
  (dat15 (F := Ideal) V c).arrAt_eq_of_cover 8 _
    (fun t _ => by
      rw [Dat.flushed, after15_8]
      exact (mix_block (idx t) (win15_0.rect_emb_val t) (win15_1.rect_emb_val t) (win15_2.rect_emb_val t)
        (win15_3.rect_emb_val t) (win15_4.rect_emb_val t) (win15_5.rect_emb_val t) (V c main_v349)
        hmean hvar hgamma hbeta halpha (win15_6.rect_emb_val t) (win15_7.rect_emb_val t) (win15_8.rect_emb_val t)
        (V c main_v288) (V c main_v368) (t.isLt.trans_eq N_15) :))
    (cover N_15 idx win15_8.rect_emb_val flush15_8 fun t => ((cfg15.win 8).blk t).view.emb_mem_set)

end Cert.KernelIdeal.RegMix

end
-- ==== Proof.SimHost.lean ====
import proofs.«151858_j43868795961412_1_alg».proof.Proof.SimDefs
import proofs.«151858_j43868795961412_1_alg».proof.Proof.Spec
import proofs.«151858_j43868795961412_1_alg».proof.Proof.RefOps
import proofs.«151858_j43868795961412_1_alg».proof.Proof.Gen.KernelIdeal.Launch
import Idealize.ShloMosaic.Lib.ValueLayout
import Idealize.ShloMosaic.Lib.Pipeline.Value

noncomputable section

namespace Cert.Sim

open Idealize.ShloMosaic Idealize.ShloMosaic.ValueIdx Idealize.ShloMosaic.StableHlo

variable {F : FTy → Type} [FloatOps F]

section Arrays

open Cert.ReferenceIdeal Cert.ReferenceIdeal.Facts₀ Cert.ReferenceIdeal.Facts

variable [ReferenceIdeal.Facts]

/-- A vector reshaped to a one-row array is the vector broadcast along a new leading unit axis: either row at (u, q) is the vector at q. -/
theorem row_eq (hsc : S128.ShapeCasts S1x128) (v : Vec F S128 .f32) :
    shapeCast S1x128 v hsc = broadcastInDim S1x128 ![1] bcast_S128_S1x128_1 v := by
  funext j
  obtain ⟨u, q, rfl⟩ : ∃ (u : Fin 1) (q : Fin 128), j = ix2 u q := ⟨j 0, j 1, eq_ix2 j⟩
  rw [broadcastInDim_apply _ bcast_S128_S1x128_1 v (ix2 u q) (ix1 q) fun a => match a with | ⟨0, _⟩ => rfl]
  exact shapeCast_a_1a_apply v hsc u q

/-- Adding a row to every row of an array: the row made by the reshape and by the broadcast give one sum. -/
theorem add_row (hsc : S128.ShapeCasts S1x128) (p : Vec F S50000x128 .f32) (b : Vec F S128 .f32) :
    addf p (broadcastInDim S50000x128 ![0, 1] bcast_S1x128_S50000x128_0_1 (shapeCast S1x128 b hsc)) = addf p (Gcn.rows b) := by
  rw [row_eq]; rfl

/-- Each column's sum over the rows, divided by the number of rows. -/
def colMean (z : Vec F S50000x128 .f32) : Vec F S128 .f32 :=
  Host.divf (Host.reduceAdd z (constant S_ .f32 0x00000000#32) reducesTo_S50000x128_S128_d0 h_S_)
    (broadcastInDim S128 ![] bcast_S_S128 (constant S_ .f32 0x47435000#32))

/-- Each column's mean squared distance to that column's mean. -/
def colVar (z : Vec F S50000x128 .f32) : Vec F S128 .f32 :=
  colMean (mulf (subf z (Gcn.rows (colMean z))) (subf z (Gcn.rows (colMean z))))

/-- A column statistic of such a sum, reshaped to a row and read at (0, q), is the statistic at q. -/
theorem stat_row (g : Vec F S50000x128 .f32 → Vec F S128 .f32) (hsc : S128.ShapeCasts S1x128) (p : Vec F S50000x128 .f32)
    (b : Vec F S128 .f32) (q : Fin 128) :
    shapeCast S1x128 (g (addf p (broadcastInDim S50000x128 ![0, 1] bcast_S1x128_S50000x128_0_1 (shapeCast S1x128 b hsc)))) hsc (ix2 (0 : Fin 1) q)
      = g (addf p (Gcn.rows b)) (ix1 q) := by
  rw [add_row]; exact shapeCast_a_1a_apply _ hsc 0 q

end Arrays

open Cert.KernelIdeal.Gen Cert.ReferenceIdeal.Chunks

variable [KernelIdeal.Facts] [ReferenceIdeal.Facts]

section Prefix

local macro "results_under_pairs" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

theorem prefix_out (Wk : KV F) (Rr : RV F) :
    after hostOps0_2 (after hostOps0_1 (after hostOps0 Wk)) (kd KernelIdeal.main_v45)
      = after rc2 (after rc1 (after rc0 Rr)) (rd ReferenceIdeal.main_v43) := by
  after_results_simp <;> rfl

variable {Wk : KV F} {Rr : RV F}
  (ha0 : Wk (kd KernelIdeal.main_arg0) = Rr (rd ReferenceIdeal.main_arg0)) (ha1 : Wk (kd KernelIdeal.main_arg1) = Rr (rd ReferenceIdeal.main_arg1))
  (ha2 : Wk (kd KernelIdeal.main_arg2) = Rr (rd ReferenceIdeal.main_arg2)) (ha3 : Wk (kd KernelIdeal.main_arg3) = Rr (rd ReferenceIdeal.main_arg3))
  (ha4 : Wk (kd KernelIdeal.main_arg4) = Rr (rd ReferenceIdeal.main_arg4)) (ha5 : Wk (kd KernelIdeal.main_arg5) = Rr (rd ReferenceIdeal.main_arg5))
  (ha6 : Wk (kd KernelIdeal.main_arg6) = Rr (rd ReferenceIdeal.main_arg6)) (ha7 : Wk (kd KernelIdeal.main_arg7) = Rr (rd ReferenceIdeal.main_arg7))
  (ha8 : Wk (kd KernelIdeal.main_arg8) = Rr (rd ReferenceIdeal.main_arg8)) (ha9 : Wk (kd KernelIdeal.main_arg9) = Rr (rd ReferenceIdeal.main_arg9))
  (ha10 : Wk (kd KernelIdeal.main_arg10) = Rr (rd ReferenceIdeal.main_arg10)) (ha11 : Wk (kd KernelIdeal.main_arg11) = Rr (rd ReferenceIdeal.main_arg11))

include ha2 in
theorem prefix_w :
    after hostOps0_2 (after hostOps0_1 (after hostOps0 Wk)) (kd KernelIdeal.main_v47)
      = after rc2 (after rc1 (after rc0 Rr)) (rd ReferenceIdeal.main_v45) := by
  after_results_simp; rw [ha2]; rfl

include ha0 ha2 ha3 in
theorem prefix_args0 : after hostOps0_2 (after hostOps0_1 (after hostOps0 Wk)) (kd KernelIdeal.main_arg0) = after rc2 (after rc1 (after rc0 Rr)) (rd ReferenceIdeal.main_arg0) ∧ after hostOps0_2 (after hostOps0_1 (after hostOps0 Wk)) (kd KernelIdeal.main_arg2) = after rc2 (after rc1 (after rc0 Rr)) (rd ReferenceIdeal.main_arg2) ∧ after hostOps0_2 (after hostOps0_1 (after hostOps0 Wk)) (kd KernelIdeal.main_arg3) = after rc2 (after rc1 (after rc0 Rr)) (rd ReferenceIdeal.main_arg3) :=
  ⟨by after_results_simp; exact ha0, by after_results_simp; exact ha2, by after_results_simp; exact ha3⟩

include ha4 ha5 ha6 in
theorem prefix_args4 : after hostOps0_2 (after hostOps0_1 (after hostOps0 Wk)) (kd KernelIdeal.main_arg4) = after rc2 (after rc1 (after rc0 Rr)) (rd ReferenceIdeal.main_arg4) ∧ after hostOps0_2 (after hostOps0_1 (after hostOps0 Wk)) (kd KernelIdeal.main_arg5) = after rc2 (after rc1 (after rc0 Rr)) (rd ReferenceIdeal.main_arg5) ∧ after hostOps0_2 (after hostOps0_1 (after hostOps0 Wk)) (kd KernelIdeal.main_arg6) = after rc2 (after rc1 (after rc0 Rr)) (rd ReferenceIdeal.main_arg6) :=
  ⟨by after_results_simp; exact ha4, by after_results_simp; exact ha5, by after_results_simp; exact ha6⟩

include ha7 ha8 ha9 in
theorem prefix_args7 : after hostOps0_2 (after hostOps0_1 (after hostOps0 Wk)) (kd KernelIdeal.main_arg7) = after rc2 (after rc1 (after rc0 Rr)) (rd ReferenceIdeal.main_arg7) ∧ after hostOps0_2 (after hostOps0_1 (after hostOps0 Wk)) (kd KernelIdeal.main_arg8) = after rc2 (after rc1 (after rc0 Rr)) (rd ReferenceIdeal.main_arg8) ∧ after hostOps0_2 (after hostOps0_1 (after hostOps0 Wk)) (kd KernelIdeal.main_arg9) = after rc2 (after rc1 (after rc0 Rr)) (rd ReferenceIdeal.main_arg9) :=
  ⟨by after_results_simp; exact ha7, by after_results_simp; exact ha8, by after_results_simp; exact ha9⟩

include ha1 in
theorem prefix2_row : after hostOps0_1 (after hostOps0 Wk) (kd KernelIdeal.main_v5) = after rc1 (after rc0 Rr) (rd ReferenceIdeal.main_v5) := by
  after_results_simp; results_under_pairs; rewrite [ha1]; rfl

include ha1 in
theorem prefix2_col : after hostOps0_1 (after hostOps0 Wk) (kd KernelIdeal.main_v6) = after rc1 (after rc0 Rr) (rd ReferenceIdeal.main_v6) := by
  after_results_simp; results_under_pairs; rewrite [ha1]; rfl

include ha1 in
theorem prefix2_deg : after hostOps0_1 (after hostOps0 Wk) (kd KernelIdeal.main_v15) = after rc1 (after rc0 Rr) (rd ReferenceIdeal.main_v15) := by
  after_results_simp; results_under_pairs; rewrite [ha1]; rfl

theorem prefix2_ones : after hostOps0_1 (after hostOps0 Wk) (kd KernelIdeal.main_v7) = after rc1 (after rc0 Rr) (rd ReferenceIdeal.main_v7) := by
  after_results_simp <;> rfl

/-- The third stretch keeps the edge lists and multiplies, edge by edge, the weight by the two endpoints' inverse square root degrees. -/
theorem prefix_step {X : KV F} {Y : RV F} (h5 : X (kd KernelIdeal.main_v5) = Y (rd ReferenceIdeal.main_v5)) (h6 : X (kd KernelIdeal.main_v6) = Y (rd ReferenceIdeal.main_v6))
    (h7 : X (kd KernelIdeal.main_v7) = Y (rd ReferenceIdeal.main_v7)) (h15 : X (kd KernelIdeal.main_v15) = Y (rd ReferenceIdeal.main_v15)) :
    after hostOps0_2 X (kd KernelIdeal.main_v5) = after rc2 Y (rd ReferenceIdeal.main_v5) ∧ after hostOps0_2 X (kd KernelIdeal.main_v6) = after rc2 Y (rd ReferenceIdeal.main_v6)
      ∧ after hostOps0_2 X (kd KernelIdeal.main_v31) = after rc2 Y (rd ReferenceIdeal.main_v31) :=
  ⟨by after_results_simp; exact h5, by after_results_simp; exact h6, by after_results_simp; rewrite [h5, h6, h7, h15]; rfl⟩

include ha0 ha1 ha2 ha3 ha4 ha5 ha6 ha7 ha8 ha9 ha10 ha11 in
theorem prefix_carried :
    Carried (after hostOps0_2 (after hostOps0_1 (after hostOps0 Wk)))
      (after rc2 (after rc1 (after rc0 Rr))) where
  a0 := (prefix_args0 ha0 ha2 ha3).1
  a2 := (prefix_args0 ha0 ha2 ha3).2.1
  a3 := (prefix_args0 ha0 ha2 ha3).2.2
  a4 := (prefix_args4 ha4 ha5 ha6).1
  a5 := (prefix_args4 ha4 ha5 ha6).2.1
  a6 := (prefix_args4 ha4 ha5 ha6).2.2
  a7 := (prefix_args7 ha7 ha8 ha9).1
  a8 := (prefix_args7 ha7 ha8 ha9).2.1
  a9 := (prefix_args7 ha7 ha8 ha9).2.2
  row := (prefix_step (prefix2_row ha1) (prefix2_col ha1) prefix2_ones (prefix2_deg ha1)).1
  col := (prefix_step (prefix2_row ha1) (prefix2_col ha1) prefix2_ones (prefix2_deg ha1)).2.1
  nrm := (prefix_step (prefix2_row ha1) (prefix2_col ha1) prefix2_ones (prefix2_deg ha1)).2.2
  mix := by after_results_simp; rewrite [ha11]; rfl
  alpha := fun q => by
    after_results_simp; rw [ha10]; exact congrArg (Rr (rd ReferenceIdeal.main_arg10)) (eq_ix0 _)

end Prefix

variable {Wk : KV F} {Rr : RV F} (hc : Carried Wk Rr)
include hc

section
variable (hh : Wk (kd KernelIdeal.main_v48) = Rr (rd ReferenceIdeal.main_v46))
include hh

theorem seg4_z :
    after hostOps1 Wk (kd KernelIdeal.main_v66) = after rc4 Rr (rd ReferenceIdeal.main_v64) := by
  after_results_simp; rw [hh, hc.row, hc.col, hc.nrm, hc.a3]; exact add_row _ _ _

theorem seg4_mean :
    ∀ q : Fin 128, (after hostOps1 Wk (kd KernelIdeal.main_v77) : Vec F KernelIdeal.S1x128 .f32) (ix2 (0 : Fin 1) q)
      = (after rc4 Rr (rd ReferenceIdeal.main_v71) : Vec F ReferenceIdeal.S128 .f32) (ix1 q) := fun q => by
  after_results_simp; rw [hh, hc.row, hc.col, hc.nrm, hc.a3]; exact stat_row colMean _ _ _ q

theorem seg4_var :
    ∀ q : Fin 128, (after hostOps1 Wk (kd KernelIdeal.main_v78) : Vec F KernelIdeal.S1x128 .f32) (ix2 (0 : Fin 1) q)
      = (after rc4 Rr (rd ReferenceIdeal.main_v78) : Vec F ReferenceIdeal.S128 .f32) (ix1 q) := fun q => by
  after_results_simp; rw [hh, hc.row, hc.col, hc.nrm, hc.a3]; exact stat_row colVar _ _ _ q

theorem seg4_gamma :
    ∀ q : Fin 128, (after hostOps1 Wk (kd KernelIdeal.main_v81) : Vec F KernelIdeal.S1x128 .f32) (ix2 (0 : Fin 1) q)
      = (after rc4 Rr (rd ReferenceIdeal.main_v66) : Vec F ReferenceIdeal.S128 .f32) (ix1 q) := fun q => by
  after_results_simp; rw [hc.a6]; exact shapeCast_a_1a_apply _ _ 0 q

theorem seg4_beta :
    ∀ q : Fin 128, (after hostOps1 Wk (kd KernelIdeal.main_v84) : Vec F KernelIdeal.S1x128 .f32) (ix2 (0 : Fin 1) q)
      = (after rc4 Rr (rd ReferenceIdeal.main_v68) : Vec F ReferenceIdeal.S128 .f32) (ix1 q) := fun q => by
  after_results_simp; rw [hc.a7]; exact shapeCast_a_1a_apply _ _ 0 q

end

theorem seg6_w :
    after hostOps2 Wk (kd KernelIdeal.main_v87) = after rc6 Rr (rd ReferenceIdeal.main_v100) := by
  after_results_simp; rw [hc.a4]; rfl

section
variable (hh : Wk (kd KernelIdeal.main_v88) = Rr (rd ReferenceIdeal.main_v101))
include hh

theorem seg8_z :
    after hostOps3 Wk (kd KernelIdeal.main_v106) = after rc8 Rr (rd ReferenceIdeal.main_v119) := by
  after_results_simp; rw [hh, hc.row, hc.col, hc.nrm, hc.a5]; exact add_row _ _ _

theorem seg8_mean :
    ∀ q : Fin 128, (after hostOps3 Wk (kd KernelIdeal.main_v117) : Vec F KernelIdeal.S1x128 .f32) (ix2 (0 : Fin 1) q)
      = (after rc8 Rr (rd ReferenceIdeal.main_v126) : Vec F ReferenceIdeal.S128 .f32) (ix1 q) := fun q => by
  after_results_simp; rw [hh, hc.row, hc.col, hc.nrm, hc.a5]; exact stat_row colMean _ _ _ q

theorem seg8_var :
    ∀ q : Fin 128, (after hostOps3 Wk (kd KernelIdeal.main_v118) : Vec F KernelIdeal.S1x128 .f32) (ix2 (0 : Fin 1) q)
      = (after rc8 Rr (rd ReferenceIdeal.main_v133) : Vec F ReferenceIdeal.S128 .f32) (ix1 q) := fun q => by
  after_results_simp; rw [hh, hc.row, hc.col, hc.nrm, hc.a5]; exact stat_row colVar _ _ _ q

theorem seg8_gamma :
    ∀ q : Fin 128, (after hostOps3 Wk (kd KernelIdeal.main_v121) : Vec F KernelIdeal.S1x128 .f32) (ix2 (0 : Fin 1) q)
      = (after rc8 Rr (rd ReferenceIdeal.main_v121) : Vec F ReferenceIdeal.S128 .f32) (ix1 q) := fun q => by
  after_results_simp; rw [hc.a8]; exact shapeCast_a_1a_apply _ _ 0 q

theorem seg8_beta :
    ∀ q : Fin 128, (after hostOps3 Wk (kd KernelIdeal.main_v124) : Vec F KernelIdeal.S1x128 .f32) (ix2 (0 : Fin 1) q)
      = (after rc8 Rr (rd ReferenceIdeal.main_v123) : Vec F ReferenceIdeal.S128 .f32) (ix1 q) := fun q => by
  after_results_simp; rw [hc.a9]; exact shapeCast_a_1a_apply _ _ 0 q

end

theorem seg8_mixcol :
    after hostOps3 Wk (kd KernelIdeal.main_v125)
      = extractStridedSlice ReferenceIdeal.S50000x1 ![0, 0] (Rr (rd ReferenceIdeal.main_v42)) ReferenceIdeal.Facts₀.slices_S50000x4_S50000x1_0_0 := by
  after_results_simp; rw [hc.mix]

theorem seg10_w :
    after hostOps4 Wk (kd KernelIdeal.main_v128) = after rc10 Rr (rd ReferenceIdeal.main_v159) := by
  after_results_simp; rw [hc.a2]; rfl

section
variable (hh : Wk (kd KernelIdeal.main_v129) = Rr (rd ReferenceIdeal.main_v160))
include hh

theorem seg12_z :
    after hostOps5 Wk (kd KernelIdeal.main_v147) = after rc12 Rr (rd ReferenceIdeal.main_v178) := by
  after_results_simp; rw [hh, hc.row, hc.col, hc.nrm, hc.a3]; exact add_row _ _ _

theorem seg12_mean :
    ∀ q : Fin 128, (after hostOps5 Wk (kd KernelIdeal.main_v158) : Vec F KernelIdeal.S1x128 .f32) (ix2 (0 : Fin 1) q)
      = (after rc12 Rr (rd ReferenceIdeal.main_v185) : Vec F ReferenceIdeal.S128 .f32) (ix1 q) := fun q => by
  after_results_simp; rw [hh, hc.row, hc.col, hc.nrm, hc.a3]; exact stat_row colMean _ _ _ q

theorem seg12_var :
    ∀ q : Fin 128, (after hostOps5 Wk (kd KernelIdeal.main_v159) : Vec F KernelIdeal.S1x128 .f32) (ix2 (0 : Fin 1) q)
      = (after rc12 Rr (rd ReferenceIdeal.main_v192) : Vec F ReferenceIdeal.S128 .f32) (ix1 q) := fun q => by
  after_results_simp; rw [hh, hc.row, hc.col, hc.nrm, hc.a3]; exact stat_row colVar _ _ _ q

theorem seg12_gamma :
    ∀ q : Fin 128, (after hostOps5 Wk (kd KernelIdeal.main_v162) : Vec F KernelIdeal.S1x128 .f32) (ix2 (0 : Fin 1) q)
      = (after rc12 Rr (rd ReferenceIdeal.main_v180) : Vec F ReferenceIdeal.S128 .f32) (ix1 q) := fun q => by
  after_results_simp; rw [hc.a6]; exact shapeCast_a_1a_apply _ _ 0 q

theorem seg12_beta :
    ∀ q : Fin 128, (after hostOps5 Wk (kd KernelIdeal.main_v165) : Vec F KernelIdeal.S1x128 .f32) (ix2 (0 : Fin 1) q)
      = (after rc12 Rr (rd ReferenceIdeal.main_v182) : Vec F ReferenceIdeal.S128 .f32) (ix1 q) := fun q => by
  after_results_simp; rw [hc.a7]; exact shapeCast_a_1a_apply _ _ 0 q

end

theorem seg14_w :
    after hostOps6 Wk (kd KernelIdeal.main_v168) = after rc14 Rr (rd ReferenceIdeal.main_v214) := by
  after_results_simp; rw [hc.a4]; rfl

section
variable (hh : Wk (kd KernelIdeal.main_v169) = Rr (rd ReferenceIdeal.main_v215))
include hh

theorem seg16_z :
    after hostOps7 Wk (kd KernelIdeal.main_v187) = after rc16 Rr (rd ReferenceIdeal.main_v233) := by
  after_results_simp; rw [hh, hc.row, hc.col, hc.nrm, hc.a5]; exact add_row _ _ _

theorem seg16_mean :
    ∀ q : Fin 128, (after hostOps7 Wk (kd KernelIdeal.main_v198) : Vec F KernelIdeal.S1x128 .f32) (ix2 (0 : Fin 1) q)
      = (after rc16 Rr (rd ReferenceIdeal.main_v240) : Vec F ReferenceIdeal.S128 .f32) (ix1 q) := fun q => by
  after_results_simp; rw [hh, hc.row, hc.col, hc.nrm, hc.a5]; exact stat_row colMean _ _ _ q

theorem seg16_var :
    ∀ q : Fin 128, (after hostOps7 Wk (kd KernelIdeal.main_v199) : Vec F KernelIdeal.S1x128 .f32) (ix2 (0 : Fin 1) q)
      = (after rc16 Rr (rd ReferenceIdeal.main_v247) : Vec F ReferenceIdeal.S128 .f32) (ix1 q) := fun q => by
  after_results_simp; rw [hh, hc.row, hc.col, hc.nrm, hc.a5]; exact stat_row colVar _ _ _ q

theorem seg16_gamma :
    ∀ q : Fin 128, (after hostOps7 Wk (kd KernelIdeal.main_v202) : Vec F KernelIdeal.S1x128 .f32) (ix2 (0 : Fin 1) q)
      = (after rc16 Rr (rd ReferenceIdeal.main_v235) : Vec F ReferenceIdeal.S128 .f32) (ix1 q) := fun q => by
  after_results_simp; rw [hc.a8]; exact shapeCast_a_1a_apply _ _ 0 q

theorem seg16_beta :
    ∀ q : Fin 128, (after hostOps7 Wk (kd KernelIdeal.main_v205) : Vec F KernelIdeal.S1x128 .f32) (ix2 (0 : Fin 1) q)
      = (after rc16 Rr (rd ReferenceIdeal.main_v237) : Vec F ReferenceIdeal.S128 .f32) (ix1 q) := fun q => by
  after_results_simp; rw [hc.a9]; exact shapeCast_a_1a_apply _ _ 0 q

end

theorem seg16_mixcol :
    after hostOps7 Wk (kd KernelIdeal.main_v206)
      = extractStridedSlice ReferenceIdeal.S50000x1 ![0, 1] (Rr (rd ReferenceIdeal.main_v42)) ReferenceIdeal.Facts₀.slices_S50000x4_S50000x1_0_1 := by
  after_results_simp; rw [hc.mix]

theorem seg18_w :
    after hostOps8 Wk (kd KernelIdeal.main_v209) = after rc18 Rr (rd ReferenceIdeal.main_v273) := by
  after_results_simp; rw [hc.a2]; rfl

section
variable (hh : Wk (kd KernelIdeal.main_v210) = Rr (rd ReferenceIdeal.main_v274))
include hh

theorem seg20_z :
    after hostOps9 Wk (kd KernelIdeal.main_v228) = after rc20 Rr (rd ReferenceIdeal.main_v292) := by
  after_results_simp; rw [hh, hc.row, hc.col, hc.nrm, hc.a3]; exact add_row _ _ _

theorem seg20_mean :
    ∀ q : Fin 128, (after hostOps9 Wk (kd KernelIdeal.main_v239) : Vec F KernelIdeal.S1x128 .f32) (ix2 (0 : Fin 1) q)
      = (after rc20 Rr (rd ReferenceIdeal.main_v299) : Vec F ReferenceIdeal.S128 .f32) (ix1 q) := fun q => by
  after_results_simp; rw [hh, hc.row, hc.col, hc.nrm, hc.a3]; exact stat_row colMean _ _ _ q

theorem seg20_var :
    ∀ q : Fin 128, (after hostOps9 Wk (kd KernelIdeal.main_v240) : Vec F KernelIdeal.S1x128 .f32) (ix2 (0 : Fin 1) q)
      = (after rc20 Rr (rd ReferenceIdeal.main_v306) : Vec F ReferenceIdeal.S128 .f32) (ix1 q) := fun q => by
  after_results_simp; rw [hh, hc.row, hc.col, hc.nrm, hc.a3]; exact stat_row colVar _ _ _ q

theorem seg20_gamma :
    ∀ q : Fin 128, (after hostOps9 Wk (kd KernelIdeal.main_v243) : Vec F KernelIdeal.S1x128 .f32) (ix2 (0 : Fin 1) q)
      = (after rc20 Rr (rd ReferenceIdeal.main_v294) : Vec F ReferenceIdeal.S128 .f32) (ix1 q) := fun q => by
  after_results_simp; rw [hc.a6]; exact shapeCast_a_1a_apply _ _ 0 q

theorem seg20_beta :
    ∀ q : Fin 128, (after hostOps9 Wk (kd KernelIdeal.main_v246) : Vec F KernelIdeal.S1x128 .f32) (ix2 (0 : Fin 1) q)
      = (after rc20 Rr (rd ReferenceIdeal.main_v296) : Vec F ReferenceIdeal.S128 .f32) (ix1 q) := fun q => by
  after_results_simp; rw [hc.a7]; exact shapeCast_a_1a_apply _ _ 0 q

end

theorem seg22_w :
    after hostOps10 Wk (kd KernelIdeal.main_v249) = after rc22 Rr (rd ReferenceIdeal.main_v328) := by
  after_results_simp; rw [hc.a4]; rfl

section
variable (hh : Wk (kd KernelIdeal.main_v250) = Rr (rd ReferenceIdeal.main_v329))
include hh

theorem seg24_z :
    after hostOps11 Wk (kd KernelIdeal.main_v268) = after rc24 Rr (rd ReferenceIdeal.main_v347) := by
  after_results_simp; rw [hh, hc.row, hc.col, hc.nrm, hc.a5]; exact add_row _ _ _

theorem seg24_mean :
    ∀ q : Fin 128, (after hostOps11 Wk (kd KernelIdeal.main_v279) : Vec F KernelIdeal.S1x128 .f32) (ix2 (0 : Fin 1) q)
      = (after rc24 Rr (rd ReferenceIdeal.main_v354) : Vec F ReferenceIdeal.S128 .f32) (ix1 q) := fun q => by
  after_results_simp; rw [hh, hc.row, hc.col, hc.nrm, hc.a5]; exact stat_row colMean _ _ _ q

theorem seg24_var :
    ∀ q : Fin 128, (after hostOps11 Wk (kd KernelIdeal.main_v280) : Vec F KernelIdeal.S1x128 .f32) (ix2 (0 : Fin 1) q)
      = (after rc24 Rr (rd ReferenceIdeal.main_v361) : Vec F ReferenceIdeal.S128 .f32) (ix1 q) := fun q => by
  after_results_simp; rw [hh, hc.row, hc.col, hc.nrm, hc.a5]; exact stat_row colVar _ _ _ q

theorem seg24_gamma :
    ∀ q : Fin 128, (after hostOps11 Wk (kd KernelIdeal.main_v283) : Vec F KernelIdeal.S1x128 .f32) (ix2 (0 : Fin 1) q)
      = (after rc24 Rr (rd ReferenceIdeal.main_v349) : Vec F ReferenceIdeal.S128 .f32) (ix1 q) := fun q => by
  after_results_simp; rw [hc.a8]; exact shapeCast_a_1a_apply _ _ 0 q

theorem seg24_beta :
    ∀ q : Fin 128, (after hostOps11 Wk (kd KernelIdeal.main_v286) : Vec F KernelIdeal.S1x128 .f32) (ix2 (0 : Fin 1) q)
      = (after rc24 Rr (rd ReferenceIdeal.main_v351) : Vec F ReferenceIdeal.S128 .f32) (ix1 q) := fun q => by
  after_results_simp; rw [hc.a9]; exact shapeCast_a_1a_apply _ _ 0 q

end

theorem seg24_mixcol :
    after hostOps11 Wk (kd KernelIdeal.main_v287)
      = extractStridedSlice ReferenceIdeal.S50000x1 ![0, 2] (Rr (rd ReferenceIdeal.main_v42)) ReferenceIdeal.Facts₀.slices_S50000x4_S50000x1_0_2 := by
  after_results_simp; rw [hc.mix]

theorem seg26_w :
    after hostOps12 Wk (kd KernelIdeal.main_v290) = after rc26 Rr (rd ReferenceIdeal.main_v387) := by
  after_results_simp; rw [hc.a2]; rfl

section
variable (hh : Wk (kd KernelIdeal.main_v291) = Rr (rd ReferenceIdeal.main_v388))
include hh

theorem seg28_z :
    after hostOps13 Wk (kd KernelIdeal.main_v309) = after rc28 Rr (rd ReferenceIdeal.main_v406) := by
  after_results_simp; rw [hh, hc.row, hc.col, hc.nrm, hc.a3]; exact add_row _ _ _

theorem seg28_mean :
    ∀ q : Fin 128, (after hostOps13 Wk (kd KernelIdeal.main_v320) : Vec F KernelIdeal.S1x128 .f32) (ix2 (0 : Fin 1) q)
      = (after rc28 Rr (rd ReferenceIdeal.main_v413) : Vec F ReferenceIdeal.S128 .f32) (ix1 q) := fun q => by
  after_results_simp; rw [hh, hc.row, hc.col, hc.nrm, hc.a3]; exact stat_row colMean _ _ _ q

theorem seg28_var :
    ∀ q : Fin 128, (after hostOps13 Wk (kd KernelIdeal.main_v321) : Vec F KernelIdeal.S1x128 .f32) (ix2 (0 : Fin 1) q)
      = (after rc28 Rr (rd ReferenceIdeal.main_v420) : Vec F ReferenceIdeal.S128 .f32) (ix1 q) := fun q => by
  after_results_simp; rw [hh, hc.row, hc.col, hc.nrm, hc.a3]; exact stat_row colVar _ _ _ q

theorem seg28_gamma :
    ∀ q : Fin 128, (after hostOps13 Wk (kd KernelIdeal.main_v324) : Vec F KernelIdeal.S1x128 .f32) (ix2 (0 : Fin 1) q)
      = (after rc28 Rr (rd ReferenceIdeal.main_v408) : Vec F ReferenceIdeal.S128 .f32) (ix1 q) := fun q => by
  after_results_simp; rw [hc.a6]; exact shapeCast_a_1a_apply _ _ 0 q

theorem seg28_beta :
    ∀ q : Fin 128, (after hostOps13 Wk (kd KernelIdeal.main_v327) : Vec F KernelIdeal.S1x128 .f32) (ix2 (0 : Fin 1) q)
      = (after rc28 Rr (rd ReferenceIdeal.main_v410) : Vec F ReferenceIdeal.S128 .f32) (ix1 q) := fun q => by
  after_results_simp; rw [hc.a7]; exact shapeCast_a_1a_apply _ _ 0 q

end

theorem seg30_w :
    after hostOps14 Wk (kd KernelIdeal.main_v330) = after rc30 Rr (rd ReferenceIdeal.main_v442) := by
  after_results_simp; rw [hc.a4]; rfl

section
variable (hh : Wk (kd KernelIdeal.main_v331) = Rr (rd ReferenceIdeal.main_v443))
include hh

theorem seg32_z :
    after hostOps15 Wk (kd KernelIdeal.main_v349) = after rc32 Rr (rd ReferenceIdeal.main_v461) := by
  after_results_simp; rw [hh, hc.row, hc.col, hc.nrm, hc.a5]; exact add_row _ _ _

theorem seg32_mean :
    ∀ q : Fin 128, (after hostOps15 Wk (kd KernelIdeal.main_v360) : Vec F KernelIdeal.S1x128 .f32) (ix2 (0 : Fin 1) q)
      = (after rc32 Rr (rd ReferenceIdeal.main_v468) : Vec F ReferenceIdeal.S128 .f32) (ix1 q) := fun q => by
  after_results_simp; rw [hh, hc.row, hc.col, hc.nrm, hc.a5]; exact stat_row colMean _ _ _ q

theorem seg32_var :
    ∀ q : Fin 128, (after hostOps15 Wk (kd KernelIdeal.main_v361) : Vec F KernelIdeal.S1x128 .f32) (ix2 (0 : Fin 1) q)
      = (after rc32 Rr (rd ReferenceIdeal.main_v475) : Vec F ReferenceIdeal.S128 .f32) (ix1 q) := fun q => by
  after_results_simp; rw [hh, hc.row, hc.col, hc.nrm, hc.a5]; exact stat_row colVar _ _ _ q

theorem seg32_gamma :
    ∀ q : Fin 128, (after hostOps15 Wk (kd KernelIdeal.main_v364) : Vec F KernelIdeal.S1x128 .f32) (ix2 (0 : Fin 1) q)
      = (after rc32 Rr (rd ReferenceIdeal.main_v463) : Vec F ReferenceIdeal.S128 .f32) (ix1 q) := fun q => by
  after_results_simp; rw [hc.a8]; exact shapeCast_a_1a_apply _ _ 0 q

theorem seg32_beta :
    ∀ q : Fin 128, (after hostOps15 Wk (kd KernelIdeal.main_v367) : Vec F KernelIdeal.S1x128 .f32) (ix2 (0 : Fin 1) q)
      = (after rc32 Rr (rd ReferenceIdeal.main_v465) : Vec F ReferenceIdeal.S128 .f32) (ix1 q) := fun q => by
  after_results_simp; rw [hc.a9]; exact shapeCast_a_1a_apply _ _ 0 q

end

theorem seg32_mixcol :
    after hostOps15 Wk (kd KernelIdeal.main_v368)
      = extractStridedSlice ReferenceIdeal.S50000x1 ![0, 3] (Rr (rd ReferenceIdeal.main_v42)) ReferenceIdeal.Facts₀.slices_S50000x4_S50000x1_0_3 := by
  after_results_simp; rw [hc.mix]

end Cert.Sim

end
-- ==== Proof.RefChunks.lean ====
import proofs.«151858_j43868795961412_1_alg».proof.Proof.Spec
import proofs.«151858_j43868795961412_1_alg».proof.Proof.SimDefs
import proofs.«151858_j43868795961412_1_alg».proof.Proof.RefOps

noncomputable section

namespace Cert.Sim

open Cert.ReferenceIdeal Cert.ReferenceIdeal.Chunks Cert.Gcn Idealize.ShloMosaic Idealize.ShloMosaic.StableHlo
open Cert.ReferenceIdeal.Facts₀ Cert.ReferenceIdeal.Facts

variable {F : FTy → Type} [FloatOps F] [Cert.ReferenceIdeal.Facts]

/-- The chunk is one contraction. -/
theorem rc3_value (Rr : RV F) :
    after rc3 Rr (rd main_v46) = mm (Rr (rd main_arg0)) (Rr (rd main_v45)) := by
  after_results
  rfl

/-- The chunk's broadcasts and elementwise operations compose to `bnAct` by definition. -/
theorem rc5_value (Rr : RV F) :
    after rc5 Rr (rd main_v98)
      = bnAct (Rr (rd main_v64)) (Rr (rd main_v71)) (Rr (rd main_v78)) (Rr (rd main_v66)) (Rr (rd main_v68))
          (Rr (rd main_arg10)) := by
  after_results_simp
  simp only [TRef.ofBuf, TRef.toBuf, cast_eq]
  rfl

theorem rc7_value (Rr : RV F) :
    after rc7 Rr (rd main_v101) = mm (Rr (rd main_v98)) (Rr (rd main_v100)) := by
  after_results
  rfl

/-- The same composition, then the accumulation `mixAdd`. -/
theorem rc9_value (Rr : RV F) :
    after rc9 Rr (rd main_v157)
      = mixAdd (Rr (rd main_v43))
          (extractStridedSlice S50000x1 ![0, 0] (Rr (rd main_v42)) slices_S50000x4_S50000x1_0_0)
          (bnAct (Rr (rd main_v119)) (Rr (rd main_v126)) (Rr (rd main_v133)) (Rr (rd main_v121))
            (Rr (rd main_v123)) (Rr (rd main_arg10))) := by
  after_results_simp
  simp only [TRef.ofBuf, TRef.toBuf, cast_eq]
  rfl

theorem rc11_value (Rr : RV F) :
    after rc11 Rr (rd main_v160) = mm (Rr (rd main_arg0)) (Rr (rd main_v159)) := by
  after_results
  rfl

theorem rc13_value (Rr : RV F) :
    after rc13 Rr (rd main_v212)
      = bnAct (Rr (rd main_v178)) (Rr (rd main_v185)) (Rr (rd main_v192)) (Rr (rd main_v180)) (Rr (rd main_v182))
          (Rr (rd main_arg10)) := by
  after_results_simp
  simp only [TRef.ofBuf, TRef.toBuf, cast_eq]
  rfl

theorem rc15_value (Rr : RV F) :
    after rc15 Rr (rd main_v215) = mm (Rr (rd main_v212)) (Rr (rd main_v214)) := by
  after_results
  rfl

theorem rc17_value (Rr : RV F) :
    after rc17 Rr (rd main_v271)
      = mixAdd (Rr (rd main_v157))
          (extractStridedSlice S50000x1 ![0, 1] (Rr (rd main_v42)) slices_S50000x4_S50000x1_0_1)
          (bnAct (Rr (rd main_v233)) (Rr (rd main_v240)) (Rr (rd main_v247)) (Rr (rd main_v235))
            (Rr (rd main_v237)) (Rr (rd main_arg10))) := by
  after_results_simp
  simp only [TRef.ofBuf, TRef.toBuf, cast_eq]
  rfl

theorem rc19_value (Rr : RV F) :
    after rc19 Rr (rd main_v274) = mm (Rr (rd main_arg0)) (Rr (rd main_v273)) := by
  after_results
  rfl

theorem rc21_value (Rr : RV F) :
    after rc21 Rr (rd main_v326)
      = bnAct (Rr (rd main_v292)) (Rr (rd main_v299)) (Rr (rd main_v306)) (Rr (rd main_v294)) (Rr (rd main_v296))
          (Rr (rd main_arg10)) := by
  after_results_simp
  simp only [TRef.ofBuf, TRef.toBuf, cast_eq]
  rfl

theorem rc23_value (Rr : RV F) :
    after rc23 Rr (rd main_v329) = mm (Rr (rd main_v326)) (Rr (rd main_v328)) := by
  after_results
  rfl

theorem rc25_value (Rr : RV F) :
    after rc25 Rr (rd main_v385)
      = mixAdd (Rr (rd main_v271))
          (extractStridedSlice S50000x1 ![0, 2] (Rr (rd main_v42)) slices_S50000x4_S50000x1_0_2)
          (bnAct (Rr (rd main_v347)) (Rr (rd main_v354)) (Rr (rd main_v361)) (Rr (rd main_v349))
            (Rr (rd main_v351)) (Rr (rd main_arg10))) := by
  after_results_simp
  simp only [TRef.ofBuf, TRef.toBuf, cast_eq]
  rfl

theorem rc27_value (Rr : RV F) :
    after rc27 Rr (rd main_v388) = mm (Rr (rd main_arg0)) (Rr (rd main_v387)) := by
  after_results
  rfl

theorem rc29_value (Rr : RV F) :
    after rc29 Rr (rd main_v440)
      = bnAct (Rr (rd main_v406)) (Rr (rd main_v413)) (Rr (rd main_v420)) (Rr (rd main_v408)) (Rr (rd main_v410))
          (Rr (rd main_arg10)) := by
  after_results_simp
  simp only [TRef.ofBuf, TRef.toBuf, cast_eq]
  rfl

theorem rc31_value (Rr : RV F) :
    after rc31 Rr (rd main_v443) = mm (Rr (rd main_v440)) (Rr (rd main_v442)) := by
  after_results
  rfl

theorem rc33_value (Rr : RV F) :
    after rc33 Rr (rd main_v499)
      = mixAdd (Rr (rd main_v385))
          (extractStridedSlice S50000x1 ![0, 3] (Rr (rd main_v42)) slices_S50000x4_S50000x1_0_3)
          (bnAct (Rr (rd main_v461)) (Rr (rd main_v468)) (Rr (rd main_v475)) (Rr (rd main_v463))
            (Rr (rd main_v465)) (Rr (rd main_arg10))) := by
  after_results_simp
  simp only [TRef.ofBuf, TRef.toBuf, cast_eq]
  rfl

end Cert.Sim

end
-- ==== Proof.SimIter.lean ====
import proofs.«151858_j43868795961412_1_alg».proof.Proof.SimDefs
import proofs.«151858_j43868795961412_1_alg».proof.Proof.KKeep
import proofs.«151858_j43868795961412_1_alg».proof.Proof.RegMM
import proofs.«151858_j43868795961412_1_alg».proof.Proof.RegBN
import proofs.«151858_j43868795961412_1_alg».proof.Proof.SimHost
import proofs.«151858_j43868795961412_1_alg».proof.Proof.RefRun
import proofs.«151858_j43868795961412_1_alg».proof.Proof.RefChunks

set_option maxRecDepth 16384

noncomputable section

namespace Cert.Sim

open Cert.KernelIdeal Cert.KernelIdeal.Gen Cert.KernelIdeal.GenP Cert.KernelIdeal.Keep Cert.ReferenceIdeal.Chunks Cert.Kept
open Idealize.ShloMosaic Idealize.ShloMosaic.TcCoe Idealize.ShloMosaic.StableHlo Idealize.SL.Sem

theorem via {α : Sort _} {a a' b b' : α} (hk : a' = a) (h : a = b) (hr : b' = b) : a' = b' :=
  hk.trans (h.trans hr.symm)

/-- Agreement passes to any later pair of valuations that keep the buffers it speaks of. -/
theorem Carried.step {F : FTy → Type} [FloatOps F] {Wk Wk' : KV F} {Rr Rr' : RV F} (h : Carried Wk Rr)
    (hk : Agree kept Wk' Wk) (hr : Agree carriedR Rr' Rr) : Carried Wk' Rr' where
  a0 := via (hk _ (by decide)) h.a0 (hr _ (by decide))
  a2 := via (hk _ (by decide)) h.a2 (hr _ (by decide))
  a3 := via (hk _ (by decide)) h.a3 (hr _ (by decide))
  a4 := via (hk _ (by decide)) h.a4 (hr _ (by decide))
  a5 := via (hk _ (by decide)) h.a5 (hr _ (by decide))
  a6 := via (hk _ (by decide)) h.a6 (hr _ (by decide))
  a7 := via (hk _ (by decide)) h.a7 (hr _ (by decide))
  a8 := via (hk _ (by decide)) h.a8 (hr _ (by decide))
  a9 := via (hk _ (by decide)) h.a9 (hr _ (by decide))
  row := via (hk _ (by decide)) h.row (hr _ (by decide))
  col := via (hk _ (by decide)) h.col (hr _ (by decide))
  nrm := via (hk _ (by decide)) h.nrm (hr _ (by decide))
  mix := via (hk _ (by decide)) h.mix (hr _ (by decide))
  alpha q := via (congrFun (hk _ (by decide)) _) (h.alpha q) (congrFun (hr _ (by decide)) _)

/-- Equal results of one function at equal arguments, for the product, the normalise-and-rectify stage and the accumulate stage. -/
theorem mm_via {x x' r r' : Vec Ideal Cert.ReferenceIdeal.S50000x128 .f32} {w w' : Vec Ideal Cert.ReferenceIdeal.S128x128 .f32}
    (hk : r = Cert.Gcn.mm x w) (hx : x = x') (hw : w = w') (hr : r' = Cert.Gcn.mm x' w') : r = r' := by
  subst hx hw; exact hk.trans hr.symm

theorem bn_via {z z' r r' : Vec Ideal Cert.ReferenceIdeal.S50000x128 .f32} {mean var gamma beta : Vec Ideal Cert.ReferenceIdeal.S128 .f32} {alpha : Vec Ideal Cert.ReferenceIdeal.S_ .f32}
    (hk : r = Cert.Gcn.bnAct z mean var gamma beta alpha) (hz : z = z') (hr : r' = Cert.Gcn.bnAct z' mean var gamma beta alpha) : r = r' := by
  subst hz; exact hk.trans hr.symm

theorem mix_via {o o' z z' r r' : Vec Ideal Cert.ReferenceIdeal.S50000x128 .f32} {mc mc' : Vec Ideal Cert.ReferenceIdeal.S50000x1 .f32} {mean var gamma beta : Vec Ideal Cert.ReferenceIdeal.S128 .f32} {alpha : Vec Ideal Cert.ReferenceIdeal.S_ .f32}
    (hk : r = Cert.Gcn.mixAdd o mc (Cert.Gcn.bnAct z mean var gamma beta alpha)) (ho : o = o') (hmc : mc = mc') (hz : z = z')
    (hr : r' = Cert.Gcn.mixAdd o' mc' (Cert.Gcn.bnAct z' mean var gamma beta alpha)) : r = r' := by
  subst ho hmc hz; exact hk.trans hr.symm

variable (m : (ℓ : Loc nD τ sig) → Buf (Elt Ideal) ℓ) (ρ : Dev nD → PrngReg)

/-- One branch: the products and the two elementwise stages agree by the regions' values against the reference's chunks, the host stretches by their step lemmas, everything else is kept. -/
theorem iter0 (c : Dev nD) (V0 : RV Ideal) (c3 : Carried (W3 m ρ c) (R3 V0))
    (hw : W3 m ρ c (kd main_v47) = R3 V0 (rd Cert.ReferenceIdeal.main_v45))
    (ho : W3 m ρ c (kd main_v45) = R3 V0 (rd Cert.ReferenceIdeal.main_v43)) :
    Carried (W11 m ρ c) (R11 V0) ∧ W11 m ρ c (kd main_v128) = R11 V0 (rd Cert.ReferenceIdeal.main_v159) ∧ W10 m ρ c (kd main_v126) = R10 V0 (rd Cert.ReferenceIdeal.main_v157) := by
  have c4 := c3.step (keep4 m ρ c) (R_carried V0 3)
  have h := mm_via ((W4_arr m ρ c 2).trans (RegMM.value0 (V3 m ρ) c)) c3.a0 hw (rc3_value (R3 V0))
  have c5 := c4.step (keep5 m ρ c) (R_carried V0 4)
  have c6 := c5.step (keep6 m ρ c) (R_carried V0 5)
  have a := bn_via ((W6_arr m ρ c 6).trans (RegBN.value1 (V5 m ρ) c _ _ _ _ _ (seg4_mean c4 h) (seg4_var c4 h) (seg4_gamma c4 h) (seg4_beta c4 h) c5.alpha))
    (seg4_z c4 h) (rc5_value (R5 V0))
  have c7 := c6.step (keep7 m ρ c) (R_carried V0 6)
  have a' := (keepAct0 m ρ c).trans (a.trans (R_keep V0 Cert.ReferenceIdeal.main_v98 6 (by decide)).symm)
  have c8 := c7.step (keep8 m ρ c) (R_carried V0 7)
  have h' := mm_via ((W8_arr m ρ c 2).trans (RegMM.value2 (V7 m ρ) c)) a' (seg6_w c6) (rc7_value (R7 V0))
  have c9 := c8.step (keep9 m ρ c) (R_carried V0 8)
  have o := (keepOut0 m ρ c).trans (ho.trans (R_keep_le V0 Cert.ReferenceIdeal.main_v43 (a := 3) (b := 9) (by decide) (by decide)).symm)
  have o' := mix_via ((W10_arr m ρ c 8).trans (RegMix.value3 (V9 m ρ) c _ _ _ _ _ (seg8_mean c8 h') (seg8_var c8 h') (seg8_gamma c8 h') (seg8_beta c8 h') c9.alpha)) o
    ((seg8_mixcol c8).trans (congrArg (extractStridedSlice _ _ · _) (R_carried V0 8 (by decide) Cert.ReferenceIdeal.main_v42 (by decide)).symm)) (seg8_z c8 h') (rc9_value (R9 V0))
  have c10 := c9.step (keep10 m ρ c) (R_carried V0 9)
  exact ⟨c10.step (keep11 m ρ c) (R_carried V0 10), seg10_w c10, o'⟩

theorem iter1 (c : Dev nD) (V0 : RV Ideal) (c11 : Carried (W11 m ρ c) (R11 V0))
    (hw : W11 m ρ c (kd main_v128) = R11 V0 (rd Cert.ReferenceIdeal.main_v159))
    (ho : W10 m ρ c (kd main_v126) = R10 V0 (rd Cert.ReferenceIdeal.main_v157)) :
    Carried (W19 m ρ c) (R19 V0) ∧ W19 m ρ c (kd main_v209) = R19 V0 (rd Cert.ReferenceIdeal.main_v273) ∧ W18 m ρ c (kd main_v207) = R18 V0 (rd Cert.ReferenceIdeal.main_v271) := by
  have c12 := c11.step (keep12 m ρ c) (R_carried V0 11)
  have h := mm_via ((W12_arr m ρ c 2).trans (RegMM.value4 (V11 m ρ) c)) c11.a0 hw (rc11_value (R11 V0))
  have c13 := c12.step (keep13 m ρ c) (R_carried V0 12)
  have c14 := c13.step (keep14 m ρ c) (R_carried V0 13)
  have a := bn_via ((W14_arr m ρ c 6).trans (RegBN.value5 (V13 m ρ) c _ _ _ _ _ (seg12_mean c12 h) (seg12_var c12 h) (seg12_gamma c12 h) (seg12_beta c12 h) c13.alpha))
    (seg12_z c12 h) (rc13_value (R13 V0))
  have c15 := c14.step (keep15 m ρ c) (R_carried V0 14)
  have a' := (keepAct1 m ρ c).trans (a.trans (R_keep V0 Cert.ReferenceIdeal.main_v212 14 (by decide)).symm)
  have c16 := c15.step (keep16 m ρ c) (R_carried V0 15)
  have h' := mm_via ((W16_arr m ρ c 2).trans (RegMM.value6 (V15 m ρ) c)) a' (seg14_w c14) (rc15_value (R15 V0))
  have c17 := c16.step (keep17 m ρ c) (R_carried V0 16)
  have o := (keepOut1 m ρ c).trans (ho.trans (R_keep_le V0 Cert.ReferenceIdeal.main_v157 (a := 10) (b := 17) (by decide) (by decide)).symm)
  have o' := mix_via ((W18_arr m ρ c 8).trans (RegMix.value7 (V17 m ρ) c _ _ _ _ _ (seg16_mean c16 h') (seg16_var c16 h') (seg16_gamma c16 h') (seg16_beta c16 h') c17.alpha)) o
    ((seg16_mixcol c16).trans (congrArg (extractStridedSlice _ _ · _) (R_carried V0 16 (by decide) Cert.ReferenceIdeal.main_v42 (by decide)).symm)) (seg16_z c16 h') (rc17_value (R17 V0))
  have c18 := c17.step (keep18 m ρ c) (R_carried V0 17)
  exact ⟨c18.step (keep19 m ρ c) (R_carried V0 18), seg18_w c18, o'⟩

theorem iter2 (c : Dev nD) (V0 : RV Ideal) (c19 : Carried (W19 m ρ c) (R19 V0))
    (hw : W19 m ρ c (kd main_v209) = R19 V0 (rd Cert.ReferenceIdeal.main_v273))
    (ho : W18 m ρ c (kd main_v207) = R18 V0 (rd Cert.ReferenceIdeal.main_v271)) :
    Carried (W27 m ρ c) (R27 V0) ∧ W27 m ρ c (kd main_v290) = R27 V0 (rd Cert.ReferenceIdeal.main_v387) ∧ W26 m ρ c (kd main_v288) = R26 V0 (rd Cert.ReferenceIdeal.main_v385) := by
  have c20 := c19.step (keep20 m ρ c) (R_carried V0 19)
  have h := mm_via ((W20_arr m ρ c 2).trans (RegMM.value8 (V19 m ρ) c)) c19.a0 hw (rc19_value (R19 V0))
  have c21 := c20.step (keep21 m ρ c) (R_carried V0 20)
  have c22 := c21.step (keep22 m ρ c) (R_carried V0 21)
  have a := bn_via ((W22_arr m ρ c 6).trans (RegBN.value9 (V21 m ρ) c _ _ _ _ _ (seg20_mean c20 h) (seg20_var c20 h) (seg20_gamma c20 h) (seg20_beta c20 h) c21.alpha))
    (seg20_z c20 h) (rc21_value (R21 V0))
  have c23 := c22.step (keep23 m ρ c) (R_carried V0 22)
  have a' := (keepAct2 m ρ c).trans (a.trans (R_keep V0 Cert.ReferenceIdeal.main_v326 22 (by decide)).symm)
  have c24 := c23.step (keep24 m ρ c) (R_carried V0 23)
  have h' := mm_via ((W24_arr m ρ c 2).trans (RegMM.value10 (V23 m ρ) c)) a' (seg22_w c22) (rc23_value (R23 V0))
  have c25 := c24.step (keep25 m ρ c) (R_carried V0 24)
  have o := (keepOut2 m ρ c).trans (ho.trans (R_keep_le V0 Cert.ReferenceIdeal.main_v271 (a := 18) (b := 25) (by decide) (by decide)).symm)
  have o' := mix_via ((W26_arr m ρ c 8).trans (RegMix.value11 (V25 m ρ) c _ _ _ _ _ (seg24_mean c24 h') (seg24_var c24 h') (seg24_gamma c24 h') (seg24_beta c24 h') c25.alpha)) o
    ((seg24_mixcol c24).trans (congrArg (extractStridedSlice _ _ · _) (R_carried V0 24 (by decide) Cert.ReferenceIdeal.main_v42 (by decide)).symm)) (seg24_z c24 h') (rc25_value (R25 V0))
  have c26 := c25.step (keep26 m ρ c) (R_carried V0 25)
  exact ⟨c26.step (keep27 m ρ c) (R_carried V0 26), seg26_w c26, o'⟩

theorem iter3 (c : Dev nD) (V0 : RV Ideal) (c27 : Carried (W27 m ρ c) (R27 V0))
    (hw : W27 m ρ c (kd main_v290) = R27 V0 (rd Cert.ReferenceIdeal.main_v387))
    (ho : W26 m ρ c (kd main_v288) = R26 V0 (rd Cert.ReferenceIdeal.main_v385)) :
    W34 m ρ c (kd main_v369) = R34 V0 (rd Cert.ReferenceIdeal.main_v499) := by
  have c28 := c27.step (keep28 m ρ c) (R_carried V0 27)
  have h := mm_via ((W28_arr m ρ c 2).trans (RegMM.value12 (V27 m ρ) c)) c27.a0 hw (rc27_value (R27 V0))
  have c29 := c28.step (keep29 m ρ c) (R_carried V0 28)
  have c30 := c29.step (keep30 m ρ c) (R_carried V0 29)
  have a := bn_via ((W30_arr m ρ c 6).trans (RegBN.value13 (V29 m ρ) c _ _ _ _ _ (seg28_mean c28 h) (seg28_var c28 h) (seg28_gamma c28 h) (seg28_beta c28 h) c29.alpha))
    (seg28_z c28 h) (rc29_value (R29 V0))
  have c31 := c30.step (keep31 m ρ c) (R_carried V0 30)
  have a' := (keepAct3 m ρ c).trans (a.trans (R_keep V0 Cert.ReferenceIdeal.main_v440 30 (by decide)).symm)
  have c32 := c31.step (keep32 m ρ c) (R_carried V0 31)
  have h' := mm_via ((W32_arr m ρ c 2).trans (RegMM.value14 (V31 m ρ) c)) a' (seg30_w c30) (rc31_value (R31 V0))
  have c33 := c32.step (keep33 m ρ c) (R_carried V0 32)
  have o := (keepOut3 m ρ c).trans (ho.trans (R_keep_le V0 Cert.ReferenceIdeal.main_v385 (a := 26) (b := 33) (by decide) (by decide)).symm)
  have o' := mix_via ((W34_arr m ρ c 8).trans (RegMix.value15 (V33 m ρ) c _ _ _ _ _ (seg32_mean c32 h') (seg32_var c32 h') (seg32_gamma c32 h') (seg32_beta c32 h') c33.alpha)) o
    ((seg32_mixcol c32).trans (congrArg (extractStridedSlice _ _ · _) (R_carried V0 32 (by decide) Cert.ReferenceIdeal.main_v42 (by decide)).symm)) (seg32_z c32 h') (rc33_value (R33 V0))
  exact o'

/-- From equal arguments the kernel program's result is the reference's. -/
theorem result_eq (c : Dev nD) (V0 : RV Ideal)
    (ha0 : W0 m ρ c (kd main_arg0) = V0 (rd Cert.ReferenceIdeal.main_arg0))
    (ha1 : W0 m ρ c (kd main_arg1) = V0 (rd Cert.ReferenceIdeal.main_arg1))
    (ha2 : W0 m ρ c (kd main_arg2) = V0 (rd Cert.ReferenceIdeal.main_arg2))
    (ha3 : W0 m ρ c (kd main_arg3) = V0 (rd Cert.ReferenceIdeal.main_arg3))
    (ha4 : W0 m ρ c (kd main_arg4) = V0 (rd Cert.ReferenceIdeal.main_arg4))
    (ha5 : W0 m ρ c (kd main_arg5) = V0 (rd Cert.ReferenceIdeal.main_arg5))
    (ha6 : W0 m ρ c (kd main_arg6) = V0 (rd Cert.ReferenceIdeal.main_arg6))
    (ha7 : W0 m ρ c (kd main_arg7) = V0 (rd Cert.ReferenceIdeal.main_arg7))
    (ha8 : W0 m ρ c (kd main_arg8) = V0 (rd Cert.ReferenceIdeal.main_arg8))
    (ha9 : W0 m ρ c (kd main_arg9) = V0 (rd Cert.ReferenceIdeal.main_arg9))
    (ha10 : W0 m ρ c (kd main_arg10) = V0 (rd Cert.ReferenceIdeal.main_arg10))
    (ha11 : W0 m ρ c (kd main_arg11) = V0 (rd Cert.ReferenceIdeal.main_arg11)) :
    W34 m ρ c (kd main_v369) = R34 V0 (rd Cert.ReferenceIdeal.main_v499) := by
  obtain ⟨c11, w11, o10⟩ := iter0 m ρ c V0 (prefix_carried ha0 ha1 ha2 ha3 ha4 ha5 ha6 ha7 ha8 ha9 ha10 ha11) (prefix_w ha2) (prefix_out (W0 m ρ c) V0)
  obtain ⟨c19, w19, o18⟩ := iter1 m ρ c V0 c11 w11 o10
  obtain ⟨c27, w27, o26⟩ := iter2 m ρ c V0 c19 w19 o18
  exact iter3 m ρ c V0 c27 w27 o26

end Cert.Sim

end
-- ==== Proof.lean ====
/-
  Sixteen pipelined regions (eight matrix products, four normalise-and-rectify passes, four that also weigh and
  accumulate, each over ten blocks of 5000 rows) among host stretches, against a reference made of host operations
  only. At the ideal values a product accumulated into a zero block is the reference's contraction and a pass over a
  block is the reference's pointwise chain restricted to that block; the blocks tile the array; everything else is
  the same operation applied to equal values. The ideal pass rewrote nothing.
-/
import proofs.«151858_j43868795961412_1_alg».proof.Defs
import proofs.«151858_j43868795961412_1_alg».proof.Proof.Gen.Kernel
import proofs.«151858_j43868795961412_1_alg».proof.Proof.Gen.KernelIdeal
import proofs.«151858_j43868795961412_1_alg».proof.Proof.Gen.ReferenceIdeal
import proofs.«151858_j43868795961412_1_alg».proof.Proof.Gen.Pre_finite_inputs
import proofs.«151858_j43868795961412_1_alg».proof.Proof.FrameK
import proofs.«151858_j43868795961412_1_alg».proof.Proof.FrameKI
import proofs.«151858_j43868795961412_1_alg».proof.Proof.KRun
import proofs.«151858_j43868795961412_1_alg».proof.Proof.RefRun
import proofs.«151858_j43868795961412_1_alg».proof.Proof.SimIter
import Idealize.ShloMosaic.Adequacy
import Idealize.ShloMosaic.Init

set_option maxRecDepth 16384

noncomputable section

namespace Cert.Proof

open Idealize.ShloMosaic Idealize.ShloMosaic.TcCoe Idealize.ShloMosaic.StableHlo Idealize.SL.Sem

theorem frame_k : Cert.frame_Kernel := fun m ρ _ => Cert.Kernel.GenP.frame m ρ
theorem frame_ki : Cert.frame_KernelIdeal := fun m ρ _ => Cert.KernelIdeal.GenP.frame m ρ

/-- The reference ends, and none of its operations writes an argument. -/
theorem frame_ri : Cert.frame_ReferenceIdeal := fun m ρ _ =>
  (θ_run Cert.ReferenceIdeal.defs _ _).mono (fun r h c =>
    ⟨(h c Cert.ReferenceIdeal.main_arg0).trans (Cert.Sim.R34_arg _ Cert.ReferenceIdeal.main_arg0 (by decide)),
     (h c Cert.ReferenceIdeal.main_arg1).trans (Cert.Sim.R34_arg _ Cert.ReferenceIdeal.main_arg1 (by decide)),
     (h c Cert.ReferenceIdeal.main_arg2).trans (Cert.Sim.R34_arg _ Cert.ReferenceIdeal.main_arg2 (by decide)),
     (h c Cert.ReferenceIdeal.main_arg3).trans (Cert.Sim.R34_arg _ Cert.ReferenceIdeal.main_arg3 (by decide)),
     (h c Cert.ReferenceIdeal.main_arg4).trans (Cert.Sim.R34_arg _ Cert.ReferenceIdeal.main_arg4 (by decide)),
     (h c Cert.ReferenceIdeal.main_arg5).trans (Cert.Sim.R34_arg _ Cert.ReferenceIdeal.main_arg5 (by decide)),
     (h c Cert.ReferenceIdeal.main_arg6).trans (Cert.Sim.R34_arg _ Cert.ReferenceIdeal.main_arg6 (by decide)),
     (h c Cert.ReferenceIdeal.main_arg7).trans (Cert.Sim.R34_arg _ Cert.ReferenceIdeal.main_arg7 (by decide)),
     (h c Cert.ReferenceIdeal.main_arg8).trans (Cert.Sim.R34_arg _ Cert.ReferenceIdeal.main_arg8 (by decide)),
     (h c Cert.ReferenceIdeal.main_arg9).trans (Cert.Sim.R34_arg _ Cert.ReferenceIdeal.main_arg9 (by decide)),
     (h c Cert.ReferenceIdeal.main_arg10).trans (Cert.Sim.R34_arg _ Cert.ReferenceIdeal.main_arg10 (by decide)),
     (h c Cert.ReferenceIdeal.main_arg11).trans (Cert.Sim.R34_arg _ Cert.ReferenceIdeal.main_arg11 (by decide))⟩)
    (Cert.ReferenceIdeal.Chunks.run (F := Ideal) m ρ)

/-- Both programs end, and from equal arguments with equal results. -/
theorem algebraic : Cert.algebraic_KernelIdeal_ReferenceIdeal := by
  intro m ρ m' ρ' _ hagree
  refine ⟨fun c => Cert.KernelIdeal.GenP.W34 m ρ c (Proc.devRef .tc Cert.KernelIdeal.main_v369),
    Cert.KernelIdeal.ResultRun.run_result m ρ, ?_⟩
  refine (θ_run Cert.ReferenceIdeal.defs _ _).mono (fun r h c => ⟨?_,
    (h c Cert.ReferenceIdeal.main_arg0).trans (Cert.Sim.R34_arg _ Cert.ReferenceIdeal.main_arg0 (by decide)),
    (h c Cert.ReferenceIdeal.main_arg1).trans (Cert.Sim.R34_arg _ Cert.ReferenceIdeal.main_arg1 (by decide)),
    (h c Cert.ReferenceIdeal.main_arg2).trans (Cert.Sim.R34_arg _ Cert.ReferenceIdeal.main_arg2 (by decide)),
    (h c Cert.ReferenceIdeal.main_arg3).trans (Cert.Sim.R34_arg _ Cert.ReferenceIdeal.main_arg3 (by decide)),
    (h c Cert.ReferenceIdeal.main_arg4).trans (Cert.Sim.R34_arg _ Cert.ReferenceIdeal.main_arg4 (by decide)),
    (h c Cert.ReferenceIdeal.main_arg5).trans (Cert.Sim.R34_arg _ Cert.ReferenceIdeal.main_arg5 (by decide)),
    (h c Cert.ReferenceIdeal.main_arg6).trans (Cert.Sim.R34_arg _ Cert.ReferenceIdeal.main_arg6 (by decide)),
    (h c Cert.ReferenceIdeal.main_arg7).trans (Cert.Sim.R34_arg _ Cert.ReferenceIdeal.main_arg7 (by decide)),
    (h c Cert.ReferenceIdeal.main_arg8).trans (Cert.Sim.R34_arg _ Cert.ReferenceIdeal.main_arg8 (by decide)),
    (h c Cert.ReferenceIdeal.main_arg9).trans (Cert.Sim.R34_arg _ Cert.ReferenceIdeal.main_arg9 (by decide)),
    (h c Cert.ReferenceIdeal.main_arg10).trans (Cert.Sim.R34_arg _ Cert.ReferenceIdeal.main_arg10 (by decide)),
    (h c Cert.ReferenceIdeal.main_arg11).trans (Cert.Sim.R34_arg _ Cert.ReferenceIdeal.main_arg11 (by decide))⟩)
    (Cert.ReferenceIdeal.Chunks.run (F := Ideal) m' ρ')
  obtain ⟨h0, h1, h2, h3, h4, h5, h6, h7, h8, h9, h10, h11⟩ := hagree c
  exact (h c Cert.ReferenceIdeal.main_v499).trans (Cert.Sim.result_eq m ρ c (launchContents m' c)
    h0.symm h1.symm h2.symm h3.symm h4.symm h5.symm h6.symm h7.symm h8.symm h9.symm h10.symm h11.symm).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
